-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩
abbrev S1x1200000 : Shape := ⟨2, ![1, 1200000]⟩
abbrev S1200000 : Shape := ⟨1, ![1200000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1200000_S1x1200000_0_0 : S2x1200000.Slices ![0, 0] S1x1200000
  shapeCasts_S1x1200000_S1200000 : S1x1200000.ShapeCasts S1200000
  bcast_S_S1200000 : S_.BroadcastsInDim S1200000 (![] : Fin 0 → Fin S1200000.rank)
  reducesTo_S1200000_S_d0 : S1200000.ReducesTo [0] S_

variable [Facts]

def fn_part1 {F : FTy → Type} [FloatOps F] (main_arg1 : IVec S2x1200000 32) (main_v13 : IVec S_ 1) (main_v15 : IVec S1200000 32) (main_v16 : IVec S1200000 32) : IVec S_ 1 :=
  let main_v17 : IVec S1200000 1 := cmpi .sge main_v15 main_v16
  let main_v18 : IVec S1x1200000 32 := (extractStridedSlice S1x1200000 ![0, 0] · slices_S2x1200000_S1x1200000_0_0) main_arg1
  let main_v19 : IVec S1200000 32 := shapeCast S1200000 main_v18 shapeCasts_S1x1200000_S1200000
  let main_c_5 : IVec S_ 32 := constantI S_ 32 100000#32
  let main_v20 : IVec S1200000 32 := broadcastInDim S1200000 ![] bcast_S_S1200000 main_c_5
  let main_v21 : IVec S1200000 1 := cmpi .slt main_v19 main_v20
  let main_v22 : IVec S1200000 1 := andi main_v17 main_v21
  let main_c_6 : IVec S_ 1 := constantI S_ 1 1#1
  let main_v23 : IVec S_ 1 := (fun x v => Host.reduce IntOp.andi x v reducesTo_S1200000_S_d0 h_S_) main_v22 main_c_6
  let main_v24 : IVec S_ 1 := andi main_v13 main_v23
  main_v24

def fn {F : FTy → Type} [FloatOps F] (main_arg0 : FVec F S100000x64 .f32) (main_arg1 : IVec S2x1200000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : IVec S1x1200000 32 := (extractStridedSlice S1x1200000 ![0, 0] · slices_S2x1200000_S1x1200000_0_0) main_arg1
  let main_v15 : IVec S1200000 32 := shapeCast S1200000 main_v14 shapeCasts_S1x1200000_S1200000
  let main_c_4 : IVec S_ 32 := constantI S_ 32 0#32
  let main_v16 : IVec S1200000 32 := broadcastInDim S1200000 ![] bcast_S_S1200000 main_c_4
  fn_part1 (F := F) main_arg1 main_v13 main_v15 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S480 : Shape := ⟨1, ![480]⟩
abbrev S1300480 : Shape := ⟨1, ![1300480]⟩
abbrev S1300480x64 : Shape := ⟨2, ![1300480, 64]⟩
abbrev S2000x64 : Shape := ⟨2, ![2000, 64]⟩
abbrev S2048 : Shape := ⟨1, ![2048]⟩
abbrev S2048x64 : Shape := ⟨2, ![2048, 64]⟩
abbrev S2048x1 : Shape := ⟨2, ![2048, 1]⟩
abbrev S1x2000 : Shape := ⟨2, ![1, 2000]⟩
abbrev S2048x2000 : Shape := ⟨2, ![2048, 2000]⟩
abbrev S2000x1 : Shape := ⟨2, ![2000, 1]⟩
abbrev S1x2048 : Shape := ⟨2, ![1, 2048]⟩
abbrev S2000x2048 : Shape := ⟨2, ![2000, 2048]⟩
abbrev S1x64 : Shape := ⟨2, ![1, 64]⟩

abbrev nBuf : Space → Nat
  | .hbm => 67
  | .vmem => 54
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S1x1200000, .i32⟩
  | .hbm, ⟨5, _⟩ => ⟨S1200000, .i32⟩
  | .hbm, ⟨6, _⟩ => ⟨S1x1200000, .i32⟩
  | .hbm, ⟨7, _⟩ => ⟨S1200000, .i32⟩
  | .hbm, ⟨8, _⟩ => ⟨S100000, .i32⟩
  | .hbm, ⟨9, _⟩ => ⟨S1300000, .i32⟩
  | .hbm, ⟨10, _⟩ => ⟨S1300000, .i32⟩
  | .hbm, ⟨11, _⟩ => ⟨S_, .f32⟩
  | .hbm, ⟨12, _⟩ => ⟨S1300000, .f32⟩
  | .hbm, ⟨13, _⟩ => ⟨S_, .f32⟩
  | .hbm, ⟨14, _⟩ => ⟨S100000, .f32⟩
  | .hbm, ⟨15, _⟩ => ⟨S1300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1300000, .i32⟩
  | .hbm, ⟨34, _⟩ => ⟨S1300000, .i1⟩
  | .hbm, ⟨35, _⟩ => ⟨S_, .i32⟩
  | .hbm, ⟨36, _⟩ => ⟨S1300000, .i32⟩
  | .hbm, ⟨37, _⟩ => ⟨S1300000, .i32⟩
  | .hbm, ⟨38, _⟩ => ⟨S1300000, .i32⟩
  | .hbm, ⟨39, _⟩ => ⟨S1300000x1, .i32⟩
  | .hbm, ⟨40, _⟩ => ⟨S1300000, .f32⟩
  | .hbm, ⟨41, _⟩ => ⟨S_, .i32⟩
  | .hbm, ⟨42, _⟩ => ⟨S1300000, .i32⟩
  | .hbm, ⟨43, _⟩ => ⟨S1300000, .i1⟩
  | .hbm, ⟨44, _⟩ => ⟨S_, .i32⟩
  | .hbm, ⟨45, _⟩ => ⟨S1300000, .i32⟩
  | .hbm, ⟨46, _⟩ => ⟨S1300000, .i32⟩
  | .hbm, ⟨47, _⟩ => ⟨S1300000, .i32⟩
  | .hbm, ⟨48, _⟩ => ⟨S1300000x1, .i32⟩
  | .hbm, ⟨49, _⟩ => ⟨S1300000, .f32⟩
  | .hbm, ⟨50, _⟩ => ⟨S1300000, .f32⟩
  | .hbm, ⟨51, _⟩ => ⟨S_, .i32⟩
  | .hbm, ⟨52, _⟩ => ⟨S480, .i32⟩
  | .hbm, ⟨53, _⟩ => ⟨S1300480, .i32⟩
  | .hbm, ⟨54, _⟩ => ⟨S_, .i32⟩
  | .hbm, ⟨55, _⟩ => ⟨S480, .i32⟩
  | .hbm, ⟨56, _⟩ => ⟨S1300480, .i32⟩
  | .hbm, ⟨57, _⟩ => ⟨S_, .f32⟩
  | .hbm, ⟨58, _⟩ => ⟨S480, .f32⟩
  | .hbm, ⟨59, _⟩ => ⟨S1300480, .f32⟩
  | .hbm, ⟨60, _⟩ => ⟨S1300480x64, .f32⟩
  | .hbm, ⟨61, _⟩ => ⟨S100000x64, .f32⟩
  | .hbm, ⟨62, _⟩ => ⟨S1300480x64, .f32⟩
  | .hbm, ⟨63, _⟩ => ⟨S100000x64, .f32⟩
  | .hbm, ⟨64, _⟩ => ⟨S1300480x64, .f32⟩
  | .hbm, ⟨65, _⟩ => ⟨S100000x64, .f32⟩
  | .hbm, ⟨66, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2048, .i32⟩
  | .local _ .vmem, ⟨3, _⟩ => ⟨S2048, .i32⟩
  | .local _ .vmem, ⟨4, _⟩ => ⟨S2048, .f32⟩
  | .local _ .vmem, ⟨5, _⟩ => ⟨S2048, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048, .i32⟩
  | .local _ .vmem, ⟨12, _⟩ => ⟨S2048, .i32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2048, .i32⟩
  | .local _ .vmem, ⟨19, _⟩ => ⟨S2048, .i32⟩
  | .local _ .vmem, ⟨20, _⟩ => ⟨S2048, .f32⟩
  | .local _ .vmem, ⟨21, _⟩ => ⟨S2048, .f32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S2048x64, .f32⟩
  | .local _ .vmem, ⟨27, _⟩ => ⟨S2048, .i32⟩
  | .local _ .vmem, ⟨28, _⟩ => ⟨S2048, .i32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2048, .i32⟩
  | .local _ .vmem, ⟨35, _⟩ => ⟨S2048, .i32⟩
  | .local _ .vmem, ⟨36, _⟩ => ⟨S2048, .f32⟩
  | .local _ .vmem, ⟨37, _⟩ => ⟨S2048, .f32⟩
  | .local _ .vmem, ⟨38, _⟩ => ⟨S2048x64, .f32⟩
  | .local _ .vmem, ⟨39, _⟩ => ⟨S2048x64, .f32⟩
  | .local _ .vmem, ⟨40, _⟩ => ⟨S2048x64, .f32⟩
  | .local _ .vmem, ⟨41, _⟩ => ⟨S2048x64, .f32⟩
  | .local _ .vmem, ⟨42, _⟩ => ⟨S2048x64, .f32⟩
  | .local _ .vmem, ⟨43, _⟩ => ⟨S2048, .i32⟩
  | .local _ .vmem, ⟨44, _⟩ => ⟨S2048, .i32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S64x64, .f32⟩
  | .local _ .vmem, ⟨51, _⟩ => ⟨S64, .f32⟩
  | .local _ .vmem, ⟨52, _⟩ => ⟨S2000x64, .f32⟩
  | .local _ .vmem, ⟨53, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_scratch0 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_scratch0 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47

abbrev nD : Nat := 1
abbrev τ : Topo := Topo.v7x

variable {F : FTy → Type} [FloatOps F]

abbrev grid0 : Pipeline.Grid := ⟨2, ![635, 50], ![false, false]⟩

def k0_cond2 (i : grid0.Coords) : BitVec 1 :=
  let arg1 : BitVec 32 := BitVec.ofNat 32 (i 1).val
  let c49_i32 : BitVec 32 := 49#32
  let v30 : BitVec 1 := Scalar.cmpi .eq arg1 c49_i32
  let v31 : BitVec 32 := Scalar.extui v30
  let c0_i32_8 : BitVec 32 := 0#32
  let v32 : BitVec 1 := Scalar.cmpi .ne v31 c0_i32_8
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![50, 635], ![false, false]⟩

def k1_cond2 (i : grid1.Coords) : BitVec 1 :=
  let arg1 : BitVec 32 := BitVec.ofNat 32 (i 1).val
  let c634_i32 : BitVec 32 := 634#32
  let v25 : BitVec 1 := Scalar.cmpi .eq arg1 c634_i32
  let v26 : BitVec 32 := Scalar.extui v25
  let c0_i32_7 : BitVec 32 := 0#32
  let v27 : BitVec 1 := Scalar.cmpi .ne v26 c0_i32_7
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![635, 50], ![false, false]⟩

def k2_cond2 (i : grid2.Coords) : BitVec 1 :=
  let arg1 : BitVec 32 := BitVec.ofNat 32 (i 1).val
  let c49_i32 : BitVec 32 := 49#32
  let v31 : BitVec 1 := Scalar.cmpi .eq arg1 c49_i32
  let v32 : BitVec 32 := Scalar.extui v31
  let c0_i32_8 : BitVec 32 := 0#32
  let v33 : BitVec 1 := Scalar.cmpi .ne v32 c0_i32_8
  v33

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![50, 635], ![false, false]⟩

def k3_cond2 (i : grid3.Coords) : BitVec 1 :=
  let arg1 : BitVec 32 := BitVec.ofNat 32 (i 1).val
  let c634_i32 : BitVec 32 := 634#32
  let v25 : BitVec 1 := Scalar.cmpi .eq arg1 c634_i32
  let v26 : BitVec 32 := Scalar.extui v25
  let c0_i32_7 : BitVec 32 := 0#32
  let v27 : BitVec 1 := Scalar.cmpi .ne v26 c0_i32_7
  v27

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![635, 50], ![false, false]⟩

def k4_cond2 (i : grid4.Coords) : BitVec 1 :=
  let arg1 : BitVec 32 := BitVec.ofNat 32 (i 1).val
  let c49_i32 : BitVec 32 := 49#32
  let v31 : BitVec 1 := Scalar.cmpi .eq arg1 c49_i32
  let v32 : BitVec 32 := Scalar.extui v31
  let c0_i32_8 : BitVec 32 := 0#32
  let v33 : BitVec 1 := Scalar.cmpi .ne v32 c0_i32_8
  v33

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_2 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S2048x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![50, 635], ![false, false]⟩

def k5_cond2 (i : grid5.Coords) : BitVec 1 :=
  let arg1 : BitVec 32 := BitVec.ofNat 32 (i 1).val
  let c634_i32 : BitVec 32 := 634#32
  let v25 : BitVec 1 := Scalar.cmpi .eq arg1 c634_i32
  let v26 : BitVec 32 := Scalar.extui v25
  let c0_i32_7 : BitVec 32 := 0#32
  let v27 : BitVec 1 := Scalar.cmpi .ne v26 c0_i32_7
  v27

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 1 → Nat :=
  let arg0 : BitVec 32 := BitVec.ofNat 32 (i 0).val
  let arg1 : BitVec 32 := BitVec.ofNat 32 (i 1).val
  let c0_i32 : BitVec 32 := 0#32
  ![arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S_S480 : S_.BroadcastsInDim S480 (![] : Fin 0 → Fin S480.rank)
  concatenates_S1300000_S480_S1300480_d0 : Shape.Concatenates [S1300000, S480] S1300480 0
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048_S2048_0 : ∀ a, (![0] : Fin 1 → Nat) a + S2048.size a ≤ S2048.size a
  h_S2048 : 0 < S2048.numel
  shapeCasts_S2048_S2048 : S2048.ShapeCasts S2048
  shapeCasts_S2048_S2048x1 : S2048.ShapeCasts S2048x1
  iota_S1x2000_d1_w32 : S1x2000.Iotas .tc 32 [1]
  broadcasts_S2048x1_S2048x2000 : S2048x1.Broadcasts S2048x2000
  broadcasts_S1x2000_S2048x2000 : S1x2000.Broadcasts S2048x2000
  natLt_1_32 : 1 < 32
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  iota_S2000x1_d0_w32 : S2000x1.Iotas .tc 32 [0]
  shapeCasts_S2048_S1x2048 : S2048.ShapeCasts S1x2048
  broadcasts_S2000x1_S2000x2048 : S2000x1.Broadcasts S2000x2048
  broadcasts_S1x2048_S2000x2048 : S1x2048.Broadcasts S2000x2048
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S2048x2000_S2000x64_S2048x64_1_0_0_1_n_n_wf : DotDims.WF S2048x2000 S2000x64 S2048x64 [1] [0] [0] [1] [] []
  dot_S2000x2048_S2048x64_S2000x64_1_0_0_1_n_n_wf : DotDims.WF S2000x2048 S2048x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S1300480.size a
  hwx0_1 : ∀ i : grid0.Coords, EltTy.bits .i32 = 32 ∨ (Rect.block (s := S1300480) S2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S1300480.size a
  hwx0_2 : ∀ i : grid0.Coords, EltTy.bits .f32 = 32 ∨ (Rect.block (s := S1300480) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S1300480x64.size a
  hwx0_3 : ∀ i : grid0.Coords, EltTy.bits .f32 = 32 ∨ (Rect.block (s := S1300480x64) S2048x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S1300480x64.size a
  hwx1_0 : ∀ i : grid1.Coords, EltTy.bits .f32 = 32 ∨ (Rect.block (s := S1300480x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048.size a ≤ S1300480.size a
  hwx1_1 : ∀ i : grid1.Coords, EltTy.bits .i32 = 32 ∨ (Rect.block (s := S1300480) S2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048.size a ≤ S1300480.size a
  hwx2_1 : ∀ i : grid2.Coords, EltTy.bits .i32 = 32 ∨ (Rect.block (s := S1300480) S2048.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048.size a ≤ S1300480.size a
  hwx2_2 : ∀ i : grid2.Coords, EltTy.bits .f32 = 32 ∨ (Rect.block (s := S1300480) S2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S1300480x64.size a
  hwx2_3 : ∀ i : grid2.Coords, EltTy.bits .f32 = 32 ∨ (Rect.block (s := S1300480x64) S2048x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S1300480x64.size a
  hwx3_0 : ∀ i : grid3.Coords, EltTy.bits .f32 = 32 ∨ (Rect.block (s := S1300480x64) S2048x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048.size a ≤ S1300480.size a
  hwx3_1 : ∀ i : grid3.Coords, EltTy.bits .i32 = 32 ∨ (Rect.block (s := S1300480) S2048.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048.size a ≤ S1300480.size a
  hwx4_1 : ∀ i : grid4.Coords, EltTy.bits .i32 = 32 ∨ (Rect.block (s := S1300480) S2048.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048.size a ≤ S1300480.size a
  hwx4_2 : ∀ i : grid4.Coords, EltTy.bits .f32 = 32 ∨ (Rect.block (s := S1300480) S2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x64.size a ≤ S1300480x64.size a
  hwx4_3 : ∀ i : grid4.Coords, EltTy.bits .f32 = 32 ∨ (Rect.block (s := S1300480x64) S2048x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x64.size a ≤ S1300480x64.size a
  hwx5_0 : ∀ i : grid5.Coords, EltTy.bits .f32 = 32 ∨ (Rect.block (s := S1300480x64) S2048x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048.size a ≤ S1300480.size a
  hwx5_1 : ∀ i : grid5.Coords, EltTy.bits .i32 = 32 ∨ (Rect.block (s := S1300480) S2048.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S100000x64.size a
  hwx5_2 : ∀ i : grid5.Coords, EltTy.bits .f32 = 32 ∨ (Rect.block (s := S100000x64) S2000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64.size a ≤ S64.size a
  hwx6_2 : ∀ i : grid6.Coords, EltTy.bits .f32 = 32 ∨ (Rect.block (s := S64) S64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S100000x64.size a
  hwx6_3 : ∀ i : grid6.Coords, EltTy.bits .f32 = 32 ∨ (Rect.block (s := S100000x64) S2000x64.size (cc6_transform_3 i) (hinb6_3 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S2048x2000_S2000x64_S2048x64_1_0_0_1_n_n : DotDims S2048x2000 S2000x64 S2048x64 where
  lhsContracting := [1]
  rhsContracting := [0]
  lhsNonContracting := [0]
  rhsNonContracting := [1]
  lhsBatch := []
  rhsBatch := []
  wf := dot_S2048x2000_S2000x64_S2048x64_1_0_0_1_n_n_wf
def dot_S2000x2048_S2048x64_S2000x64_1_0_0_1_n_n : DotDims S2000x2048 S2048x64 S2000x64 where
  lhsContracting := [1]
  rhsContracting := [0]
  lhsNonContracting := [0]
  rhsNonContracting := [1]
  lhsBatch := []
  rhsBatch := []
  wf := dot_S2000x2048_S2048x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v39) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v40) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v41) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v42) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v38) S2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v43) S2048x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v43) S2048x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v44) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v44) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg2) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg3) S64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v45) S2000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 103
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S1x1200000, .i32⟩
  | .hbm, ⟨5, _⟩ => ⟨S1200000, .i32⟩
  | .hbm, ⟨6, _⟩ => ⟨S1x1200000, .i32⟩
  | .hbm, ⟨7, _⟩ => ⟨S1200000, .i32⟩
  | .hbm, ⟨8, _⟩ => ⟨S100000, .i32⟩
  | .hbm, ⟨9, _⟩ => ⟨S1300000, .i32⟩
  | .hbm, ⟨10, _⟩ => ⟨S1300000, .i32⟩
  | .hbm, ⟨11, _⟩ => ⟨S_, .f32⟩
  | .hbm, ⟨12, _⟩ => ⟨S1300000, .f32⟩
  | .hbm, ⟨13, _⟩ => ⟨S_, .f32⟩
  | .hbm, ⟨14, _⟩ => ⟨S100000, .f32⟩
  | .hbm, ⟨15, _⟩ => ⟨S1300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1300000, .i32⟩
  | .hbm, ⟨34, _⟩ => ⟨S1300000, .i1⟩
  | .hbm, ⟨35, _⟩ => ⟨S_, .i32⟩
  | .hbm, ⟨36, _⟩ => ⟨S1300000, .i32⟩
  | .hbm, ⟨37, _⟩ => ⟨S1300000, .i32⟩
  | .hbm, ⟨38, _⟩ => ⟨S1300000, .i32⟩
  | .hbm, ⟨39, _⟩ => ⟨S1300000x1, .i32⟩
  | .hbm, ⟨40, _⟩ => ⟨S1300000, .f32⟩
  | .hbm, ⟨41, _⟩ => ⟨S_, .i32⟩
  | .hbm, ⟨42, _⟩ => ⟨S1300000, .i32⟩
  | .hbm, ⟨43, _⟩ => ⟨S1300000, .i1⟩
  | .hbm, ⟨44, _⟩ => ⟨S_, .i32⟩
  | .hbm, ⟨45, _⟩ => ⟨S1300000, .i32⟩
  | .hbm, ⟨46, _⟩ => ⟨S1300000, .i32⟩
  | .hbm, ⟨47, _⟩ => ⟨S1300000, .i32⟩
  | .hbm, ⟨48, _⟩ => ⟨S1300000x1, .i32⟩
  | .hbm, ⟨49, _⟩ => ⟨S1300000, .f32⟩
  | .hbm, ⟨50, _⟩ => ⟨S1300000, .f32⟩
  | .hbm, ⟨51, _⟩ => ⟨S1300000x1, .f32⟩
  | .hbm, ⟨52, _⟩ => ⟨S_, .i32⟩
  | .hbm, ⟨53, _⟩ => ⟨S1300000, .i32⟩
  | .hbm, ⟨54, _⟩ => ⟨S1300000, .i1⟩
  | .hbm, ⟨55, _⟩ => ⟨S_, .i32⟩
  | .hbm, ⟨56, _⟩ => ⟨S1300000, .i32⟩
  | .hbm, ⟨57, _⟩ => ⟨S1300000, .i32⟩
  | .hbm, ⟨58, _⟩ => ⟨S1300000, .i32⟩
  | .hbm, ⟨59, _⟩ => ⟨S1300000x1, .i32⟩
  | .hbm, ⟨60, _⟩ => ⟨S1300000x64, .f32⟩
  | .hbm, ⟨61, _⟩ => ⟨S1300000x64, .f32⟩
  | .hbm, ⟨62, _⟩ => ⟨S1300000x64, .f32⟩
  | .hbm, ⟨63, _⟩ => ⟨S_, .f32⟩
  | .hbm, ⟨64, _⟩ => ⟨S100000x64, .f32⟩
  | .hbm, ⟨65, _⟩ => ⟨S1300000x1, .i32⟩
  | .hbm, ⟨66, _⟩ => ⟨S100000x64, .f32⟩
  | .hbm, ⟨67, _⟩ => ⟨S1300000x1, .f32⟩
  | .hbm, ⟨68, _⟩ => ⟨S_, .i32⟩
  | .hbm, ⟨69, _⟩ => ⟨S1300000, .i32⟩
  | .hbm, ⟨70, _⟩ => ⟨S1300000, .i1⟩
  | .hbm, ⟨71, _⟩ => ⟨S_, .i32⟩
  | .hbm, ⟨72, _⟩ => ⟨S1300000, .i32⟩
  | .hbm, ⟨73, _⟩ => ⟨S1300000, .i32⟩
  | .hbm, ⟨74, _⟩ => ⟨S1300000, .i32⟩
  | .hbm, ⟨75, _⟩ => ⟨S1300000x1, .i32⟩
  | .hbm, ⟨76, _⟩ => ⟨S1300000x64, .f32⟩
  | .hbm, ⟨77, _⟩ => ⟨S1300000x64, .f32⟩
  | .hbm, ⟨78, _⟩ => ⟨S1300000x64, .f32⟩
  | .hbm, ⟨79, _⟩ => ⟨S_, .f32⟩
  | .hbm, ⟨80, _⟩ => ⟨S100000x64, .f32⟩
  | .hbm, ⟨81, _⟩ => ⟨S1300000x1, .i32⟩
  | .hbm, ⟨82, _⟩ => ⟨S100000x64, .f32⟩
  | .hbm, ⟨83, _⟩ => ⟨S1300000x1, .f32⟩
  | .hbm, ⟨84, _⟩ => ⟨S_, .i32⟩
  | .hbm, ⟨85, _⟩ => ⟨S1300000, .i32⟩
  | .hbm, ⟨86, _⟩ => ⟨S1300000, .i1⟩
  | .hbm, ⟨87, _⟩ => ⟨S_, .i32⟩
  | .hbm, ⟨88, _⟩ => ⟨S1300000, .i32⟩
  | .hbm, ⟨89, _⟩ => ⟨S1300000, .i32⟩
  | .hbm, ⟨90, _⟩ => ⟨S1300000, .i32⟩
  | .hbm, ⟨91, _⟩ => ⟨S1300000x1, .i32⟩
  | .hbm, ⟨92, _⟩ => ⟨S1300000x64, .f32⟩
  | .hbm, ⟨93, _⟩ => ⟨S1300000x64, .f32⟩
  | .hbm, ⟨94, _⟩ => ⟨S1300000x64, .f32⟩
  | .hbm, ⟨95, _⟩ => ⟨S_, .f32⟩
  | .hbm, ⟨96, _⟩ => ⟨S100000x64, .f32⟩
  | .hbm, ⟨97, _⟩ => ⟨S1300000x1, .i32⟩
  | .hbm, ⟨98, _⟩ => ⟨S100000x64, .f32⟩
  | .hbm, ⟨99, _⟩ => ⟨S100000x64, .f32⟩
  | .hbm, ⟨100, _⟩ => ⟨S1x64, .f32⟩
  | .hbm, ⟨101, _⟩ => ⟨S100000x64, .f32⟩
  | .hbm, ⟨102, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_14 : Ref sig .tc := ⟨.hbm, 84, rfl⟩
abbrev main_v60 : Ref sig .tc := ⟨.hbm, 85, rfl⟩
abbrev main_v61 : Ref sig .tc := ⟨.hbm, 86, rfl⟩
abbrev main_c_15 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.GBody.lean ====
import proofs.«180960_j9371618640573_1_alg».proof.Proof.Gen.Kernel.Launch
import proofs.«180960_j9371618640573_1_alg».proof.Proof.Gen.Kernel.Skeleton
import Idealize.ShloMosaic.Lib.Pipeline.FrameBody
import Idealize.ShloMosaic.Lib.Pipeline.Value
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Point t lies in edge block t / 50, a number below 635, which its 32-bit word gives back unchanged. -/
theorem gIndex_3 (t : Fin cfg0.N) : win0_3.index t 0 = t.val / 50 ∧ win0_3.index t 1 = 0 := by
  have ht : t.val < 31750 := t.isLt
  refine ⟨?_, rfl⟩
  show (BitVec.ofNat 32 (t.val / grid0.stride 0 % 635)).toNat = _
  rw [show grid0.stride 0 = 50 by decide, BitVec.toNat_ofNat]
  omega

/-- The quotient by 50 changes between t and t + 1 exactly when t ≡ 49 (mod 50), and the last point, 31749, is such a t. -/
theorem gFlush_3 (t : Fin cfg0.N) : (cfg0.win 3).flush t = true ↔ t.val % 50 = 49 := by
  have hN : grid0.N = 31750 := by decide
  have ht : t.val < grid0.N := t.isLt
  have hne : ∀ h : t.val + 1 < grid0.N, win0_3.index ⟨t.val + 1, h⟩ ≠ win0_3.index t ↔ (t.val + 1) / 50 ≠ t.val / 50 := fun h =>
    not_congr ⟨fun he => (gIndex_3 ⟨_, h⟩).1.symm.trans ((congrFun he 0).trans (gIndex_3 t).1),
      fun he => funext fun a => by
        fin_cases a
        · exact (gIndex_3 ⟨_, h⟩).1.trans (he.trans (gIndex_3 t).1.symm)
        · exact (gIndex_3 ⟨_, h⟩).2.trans (gIndex_3 t).2.symm⟩
  refine (win0_3.flush_out rfl t).trans ⟨?_, fun h49 => ?_⟩
  · rintro (h | ⟨h, hd⟩)
    · omega
    · have := (hne h).mp hd; omega
  · by_cases hl : t.val + 1 = grid0.N
    · exact .inl hl
    · exact .inr ⟨by omega, (hne (by omega)).mpr (by omega)⟩

/-- The two tests the body makes on the node-block coordinate: against 0 and against 49. -/
abbrev gReset (i : grid0.Coords) : Prop :=
  (Scalar.cmpi .ne (Scalar.extui (Scalar.cmpi .eq (BitVec.ofNat 32 (i 1).val) 0#32)) 0#32) = 1#1

abbrev gCopy (i : grid0.Coords) : Prop := k0_cond2 i = 1#1

/-- Over the 50 possible coordinates the first test holds at 0 only and the second at 49 only. -/
theorem gCmp : ∀ k : Fin 50,
    ((Scalar.cmpi .ne (Scalar.extui (Scalar.cmpi .eq (BitVec.ofNat 32 k.val) 0#32) : BitVec 32) 0#32) = 1#1 ↔ k.val = 0) ∧
    ((Scalar.cmpi .ne (Scalar.extui (Scalar.cmpi .eq (BitVec.ofNat 32 k.val) 49#32) : BitVec 32) 0#32) = 1#1 ↔ k.val = 49) := by
  decide +kernel

/-- The last coordinate of point t is t mod 50, so the tests read t ≡ 0 and t ≡ 49 (mod 50). -/
theorem gCond_iff (t : Fin cfg0.N) :
    (gReset (grid0.coords t) ↔ t.val % 50 = 0) ∧ (gCopy (grid0.coords t) ↔ t.val % 50 = 49) := by
  have e : ((grid0.coords t) 1).val = t.val % 50 := by
    show t.val / grid0.stride 1 % grid0.bound 1 = t.val % 50
    rw [show grid0.stride 1 = 1 from by decide, Nat.div_one]
    rfl
  rw [← e]; exact gCmp ((grid0.coords t) 1)

theorem hz_2 : (![0, 0] : Fin 2 → ℕ) = fun _ => 0 := funext fun a => by fin_cases a <;> rfl
theorem hz_1 : (![0] : Fin 1 → ℕ) = fun _ => 0 := funext fun a => by fin_cases a <;> rfl

/-- The newest piece covers every index, so reading back gives its payload whatever lies under it. -/
theorem read_last {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- One run of `ker`: the accumulator becomes `pay2` of itself (of `pay1` under the first test) and is copied out under the second. -/
def GRunSpec (ker : type_of% (cc0__gather_kernel (F := F))) (pay1 : type_of% (k0_pay1 (F := F))) (pay2 : type_of% (k0_pay2 (F := F))) : Prop :=
  ∀ (c : Dev nD) (i : grid0.Coords)
    (arg2 : Memref sig .tc .vmem S2000x64 .f32) (harg2 : arg2.IsWhole) (arg3 : Memref sig .tc .vmem S2048 .i32) (harg3 : arg3.IsWhole)
    (arg4 : Memref sig .tc .vmem S2048 .f32) (harg4 : arg4.IsWhole) (arg5 : Memref sig .tc .vmem S2048x64 .f32) (harg5 : arg5.IsWhole)
    (arg6 : Memref sig .tc .vmem S2048x64 .f32) (harg6 : arg6.IsWhole)
    (x0 : Vec F S2000x64 .f32) (x1 : Vec F S2048 .i32) (x2 : Vec F S2048 .f32) (x3 xs : Vec F S2048x64 .f32)
    (E : Set ℕ) (K : PUnit → sProp 𝕄),
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if gCopy i then pay2 i x1 x2 x0 (if gReset i then pay1 else xs) else x3)
            ∗ owns (c : Thread nD τ) arg6 fullShare (pay2 i x1 x2 x0 (if gReset i then pay1 else xs))) -∗ K ⟨⟩))
      ⊢ wp frame (wpE (defs₀ (F := F)) Variants.none c none) E (ker i arg2 harg2 arg3 harg3 arg4 harg4 arg5 harg5 arg6 harg6) K

theorem gRun0 : GRunSpec (F := F) cc0__gather_kernel k0_pay1 k0_pay2 := by
  intro c i arg2 harg2 arg3 harg3 arg4 harg4 arg5 harg5 arg6 harg6 x0 x1 x2 x3 xs E K
  by_cases hc0 : gReset i <;> by_cases hc1 : gCopy i <;>
    (first | rw [if_pos hc0] | rw [if_neg hc0]) <;> (first | rw [if_pos hc1] | rw [if_neg hc1])
  · exact absurd ((gCmp (i 1)).1.mp hc0 ▸ (gCmp (i 1)).2.mp hc1) (by decide)
  all_goals
    simp only [cc0__gather_kernel_eq_skeleton]; unfold cc0__gather_kernel_skel owns
    iintro ⟨⟨%f0, %hf0, H0⟩, ⟨%f1, %hf1, H1⟩, ⟨%f2, %hf2, H2⟩, ⟨%f3, %hf3, H3⟩, ⟨%f6, %hf6, H6⟩, Hk⟩
    subst hf0 hf1 hf2 hf3 hf6
    sl_exec (disch := first | exact hc0 | exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr
      swap; · iexact H3
      ipureintro
      first
        | (try sl_unfold_words) <;> rw [read_last _ _ hz_2] <;> (try rw [View.readCov_unit_zero (S := S2048x64) _ hz_2]) <;>
            simp only [View.readAt_eq_ld, View.ld_unit_zero (S := S2048) hz_1, View.ld_unit_zero (S := S2000x64) hz_2,
              View.ld_unit_zero (S := S2048x64) hz_2]
        | rfl
    iexists _; isplitr
    swap; · iexact H6
    ipureintro
    (try sl_unfold_words) <;> rw [read_last _ _ hz_2] <;> (try rw [View.readCov_unit_zero (S := S2048x64) _ hz_2]) <;>
      simp only [View.readAt_eq_ld, View.ld_unit_zero (S := S2048) hz_1, View.ld_unit_zero (S := S2000x64) hz_2,
        View.ld_unit_zero (S := S2048x64) hz_2]

/-- Calls 2 and 4 differ from call 0 by one reshape of the feature block to its own shape, which is the identity. -/
theorem gPay2 : k2_pay2 (F := F) = k0_pay2 := by
  funext i v3 v16 v22 v25
  simp only [k2_pay2, k0_pay2, shapeCast_self]

theorem gKer2 : cc2__gather_kernel (F := F) = cc0__gather_kernel := by
  rw [cc2__gather_kernel_eq_skeleton, cc0__gather_kernel_eq_skeleton]
  unfold cc2__gather_kernel_skel cc0__gather_kernel_skel
  rw [gPay2]; rfl

theorem gRun2 : GRunSpec (F := F) cc2__gather_kernel k2_pay1 k2_pay2 := by
  rw [gKer2, gPay2]; exact gRun0

theorem gRun4 : GRunSpec (F := F) cc4__gather_kernel k4_pay1 k4_pay2 := gRun2

end Cert.Kernel.Hand

end
-- ==== Proof.K.Sched0.lean ====
import proofs.«180960_j9371618640573_1_alg».proof.Proof.K.GBody

namespace Cert.Kernel.GenP

open Cert.Kernel.Gen Cert.Kernel.Hand

theorem flush0_3 : ∀ t : Fin cfg0.N, (cfg0.win 3).flush t = true ↔ t.val % 50 = 49 := gFlush_3

end Cert.Kernel.GenP
-- ==== Proof.K.G0.lean ====
import proofs.«180960_j9371618640573_1_alg».proof.Proof.K.Sched0
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem hcond0_0 (t : Fin cfg0.N) : gReset (grid0.coords t) ↔ t.val % 50 = 0 := (gCond_iff t).1

theorem hcond0_1 (t : Fin cfg0.N) : gCopy (grid0.coords t) ↔ t.val % 50 = 49 := (gCond_iff t).2

variable (V : (c : Dev nD) → (b : Ref sig .tc) → Buf (Elt F) ((c : Thread nD τ).loc b))

/-- The part of array `w` that point `t` sees, at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum of the block products over a run of 50 points, restarted from zero at every multiple of 50. -/
def acc0 (c : Dev nD) : (n : ℕ) → n < cfg0.N → Vec F S2048x64 .f32
  | 0, h => k0_pay2 (grid0.coords ⟨0, h⟩) (iblk0 V c 1 ⟨0, h⟩) (iblk0 V c 2 ⟨0, h⟩) (iblk0 V c 0 ⟨0, h⟩) k0_pay1
  | n + 1, h => k0_pay2 (grid0.coords ⟨n + 1, h⟩) (iblk0 V c 1 ⟨n + 1, h⟩) (iblk0 V c 2 ⟨n + 1, h⟩) (iblk0 V c 0 ⟨n + 1, h⟩)
      (if (n + 1) % 50 = 0 then k0_pay1 else acc0 c n (Nat.lt_of_succ_lt h))

abbrev scM0 : Memref sig .tc .vmem S2048x64 .f32 := Memref.whole cc0_scratch0

/-- The invariant at `t`: the accumulator holds `acc0 (t - 1)`, and anything at `t = 0`. -/
def PhiS0 (c : Dev nD) (t : Fin (cfg0.N + 1)) : sProp 𝕄 :=
  iprop(∃ d, ⌜∀ h : t.val ≠ 0, d = acc0 V c (t.val - 1) (by omega)⌝ ∗ owns (c : Thread nD τ) scM0 fullShare d
    ∗ Pipeline.scopedRestBut spec0 c [cc0_scratch0])

/-- Proof data of the call: the inputs are left as found, the output carries the running sum. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => acc0 V c t.val t.isLt
  Φ := PhiS0 V c
  q _ := fullShare
  owed _ := 0

theorem after0_3 (c : Dev nD) (t : Fin cfg0.N) : (dat0 V c).after 3 t = acc0 V c t.val t.isLt := rfl

theorem acc0_first (c : Dev nD) (t : Fin cfg0.N) (h : t.val % 50 = 0) :
    acc0 V c t.val t.isLt = k0_pay2 (grid0.coords t) (iblk0 V c 1 t) (iblk0 V c 2 t) (iblk0 V c 0 t) k0_pay1 := by
  obtain ⟨_ | n, hn⟩ := t
  · rfl
  · exact (congrArg _ (if_pos h) :)

theorem acc0_next (c : Dev nD) (t : Fin cfg0.N) (h : ¬t.val % 50 = 0) :
    acc0 V c t.val t.isLt = k0_pay2 (grid0.coords t) (iblk0 V c 1 t) (iblk0 V c 2 t) (iblk0 V c 0 t)
      (acc0 V c (t.val - 1) (Nat.lt_of_le_of_lt (Nat.sub_le _ _) t.isLt)) := by
  obtain ⟨_ | n, hn⟩ := t
  · exact absurd rfl h
  · exact (congrArg _ (if_neg h) :)

/-- Under the second test the output holds the running sum; otherwise (t ≢ 49) it is as found. -/
theorem leaves0_3 (c : Dev nD) (t : Fin cfg0.N) (d) :
    owns (c : Thread nD τ) (win0_3.stage (cfg0.slots t 3)) fullShare
      (if gCopy (grid0.coords t) then acc0 V c t.val t.isLt else (dat0 V c).before 3 t d) ⊢ (dat0 V c).leavesExact 3 t := by
  by_cases h : gCopy (grid0.coords t)
  · rw [if_pos h]; unfold Dat.leavesExact
    rw [show cfg0.idle 3 (grid0.coords t) = false from by show (!(k0_cond2 _ == 1#1)) = false; rw [(beq_iff_eq (a := k0_cond2 (grid0.coords t))).mpr h]; rfl]
    exact .rfl
  · rw [if_neg h, Dat.leavesExact_idle _ 3 t (by show (!(k0_cond2 _ == 1#1)) = true; rw [beq_false_of_ne (a := k0_cond2 (grid0.coords t)) h]; rfl)
      (Bool.eq_false_iff.mpr fun hf => h ((hcond0_1 t).mpr ((flush0_3 t).mp hf)))]
    iintro H; iexists _; iexact H

/-- One run of the body takes the invariant at `t` to the invariant at `t + 1`: `acc0`'s recursion is the run's own step. -/
theorem body_obligation0 (c : Dev nD) : BodyObligation (dat0 (F := F) V c) (defs₀ (F := F)) Variants.none () Set.univ := fun t => by
  rw [bigSep_W0, bigSep_W0, show (dat0 V c).Φ = PhiS0 V c from rfl]
  dsimp only
  unfold PhiS0
  have hacc : ∀ ds, (∀ hz : t.val ≠ 0, ds = acc0 V c (t.val - 1) (by omega)) →
      k0_pay2 (grid0.coords t) (iblk0 V c 1 t) (iblk0 V c 2 t) (iblk0 V c 0 t) (if gReset (grid0.coords t) then k0_pay1 else ds)
        = acc0 V c t.val t.isLt := fun ds hds => by
    by_cases h0 : t.val % 50 = 0
    · rw [if_pos ((hcond0_0 t).mpr h0), acc0_first V c t h0]
    · rw [if_neg (mt (hcond0_0 t).mp h0), acc0_next V c t h0, hds fun e => h0 (by rw [e])]
  iintro ⟨⟨%ds, %hds, HS, HR⟩, Ho, ⟨%d0, H0⟩, ⟨%d1, H1⟩, ⟨%d2, H2⟩, ⟨%d3, H3⟩⟩
  rw [(dat0 V c).before_in_eq_fetched 0 rfl (fun _ => rfl) (fun _ _ _ => rfl) (fun _ => rfl) t d0,
    (dat0 V c).before_in_eq_fetched 1 rfl (fun _ => rfl) (fun _ _ _ => rfl) (fun _ => rfl) t d1,
    (dat0 V c).before_in_eq_fetched 2 rfl (fun _ => rfl) (fun _ _ _ => rfl) (fun _ => rfl) t d2]
  iapply (gRun0 c (grid0.coords t) _ (stage_whole0 0 _) _ (stage_whole0 1 _) _ (stage_whole0 2 _) _ (stage_whole0 3 _) _ (Memref.isWhole_whole _)
    (iblk0 V c 0 t) (iblk0 V c 1 t) (iblk0 V c 2 t) ((dat0 V c).before 3 t d3) ds Set.univ _)
  isplitl [H0]; · iexact H0
  isplitl [H1]; · iexact H1
  isplitl [H2]; · iexact H2
  isplitl [H3]; · iexact H3
  isplitl [HS]; · iexact HS
  rw [hacc ds hds]
  iintro ⟨H0, H1, H2, H3, HS⟩
  isplitl [HS HR]
  · iexists _; iframe HS HR; ipureintro; exact fun _ => rfl
  isplitl [Ho]; · iexact Ho
  isplitl [H0]; · iexact H0
  isplitl [H1]; · iexact H1
  isplitl [H2]; · iexact H2
  iapply (leaves0_3 V c t d3)
  iexact H3

theorem hin0 (c : Dev nD) : (Pipeline.scopedRest spec0 c : sProp 𝕄) ⊢ (dat0 V c).Φ 0 := by
  rw [scopedRest0_split]; show _ ⊢ PhiS0 V c 0; unfold PhiS0; simp only [scM0, owns_whole]
  iintro ⟨⟨%d, H⟩, R⟩; iexists d; iframe H R; ipureintro; exact fun h => absurd rfl h

theorem hout0 (c : Dev nD) : (dat0 V c).Φ (Fin.last cfg0.N) ⊢ (Pipeline.scopedRest spec0 c : sProp 𝕄) := by
  rw [scopedRest0_split]; show PhiS0 V c _ ⊢ _; unfold PhiS0; simp only [scM0, owns_whole]
  iintro ⟨%d, -, H, R⟩; iframe R; iexists d; iexact H

end Cert.Kernel.Hand

end
-- ==== Proof.CommonS.lean ====
import Idealize.ShloMosaic.Lib.Pipeline.FrameBody
import Idealize.ShloMosaic.Lib.Pipeline.Value

namespace Cert.Common

open Idealize.ShloMosaic Idealize.SL.Sem

theorem zeros_two : (![0, 0] : Fin 2 → Nat) = fun _ => 0 := funext fun a => by fin_cases a <;> rfl
theorem zeros_one : (![0] : Fin 1 → Nat) = fun _ => 0 := funext fun a => by fin_cases a <;> rfl

/-- When the last of several stores covers the whole buffer, reading the buffer back gives that store's payload. -/
theorem read_last_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon _ _ _ fun y => ⟨_, List.mem_cons_self .., View.mem_set_unit_zero h inb y⟩,
    View.canon_cons_unit_zero h]

end Cert.Common
-- ==== Proof.K.SBody.lean ====
import proofs.«180960_j9371618640573_1_alg».proof.Proof.Gen.Kernel.Launch
import proofs.«180960_j9371618640573_1_alg».proof.Proof.Gen.Kernel.Skeleton
import proofs.«180960_j9371618640573_1_alg».proof.Proof.CommonS
import Idealize.ShloMosaic.Lib.Tactic

noncomputable section

namespace Cert.Kernel.Hand

open Cert.Common Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Point t of the 50 x 635 grid is edge block t % 635 of node block t / 635. -/
theorem scoord (t : Fin grid1.N) : (grid1.coords t 0).val = t.val / 635 % 50 ∧ (grid1.coords t 1).val = t.val % 635 := by
  constructor
  · show t.val / grid1.stride 0 % grid1.bound 0 = _
    rw [show grid1.stride 0 = 635 from by decide, show grid1.bound 0 = 50 from rfl]
  · show t.val / grid1.stride 1 % grid1.bound 1 = _
    rw [show grid1.stride 1 = 1 from by decide, show grid1.bound 1 = 635 from rfl, Nat.div_one]

/-- The result's block index is `t / 635`, which differs between `t` and `t + 1` exactly when `t % 635 = 634`. -/
theorem sflush (t : Fin cfg1.N) : (cfg1.win 2).flush t = true ↔ t.val % 635 = 634 := by
  have hN : grid1.N = 31750 := N_1
  have ht : t.val < 31750 := lt_of_lt_of_eq t.isLt hN
  have hix : ∀ u : Fin cfg1.N, (cfg1.win 2).index u ⟨0, by decide⟩ = u.val / 635 % 50 := fun u => by
    show (BitVec.ofNat 32 (grid1.coords u 0).val).toNat = _
    rw [(scoord u).1, BitVec.toNat_ofNat]; omega
  rw [(cfg1.win 2).flush_out rfl t]
  constructor
  · rintro (h1 | ⟨h1, hne⟩)
    · have := h1.trans hN; omega
    · have h1' : t.val + 1 < 31750 := lt_of_lt_of_eq h1 hN
      refine Classical.byContradiction fun h => hne ((cfg1.win 2).hreads _ _ fun a ha => ?_)
      match a, ha with
      | ⟨0, _⟩, _ =>
        exact Fin.ext ((scoord ⟨t.val + 1, h1⟩).1.trans ((by omega : (t.val + 1) / 635 % 50 = t.val / 635 % 50).trans (scoord t).1.symm))
      | ⟨1, _⟩, ha => exact absurd ha Bool.false_ne_true
  · intro h
    by_cases hl : t.val + 1 = 31750
    · exact .inl (hl.trans hN.symm)
    · have h1 : t.val + 1 < grid1.N := lt_of_lt_of_eq (by omega) hN.symm
      refine .inr ⟨h1, fun he => ?_⟩
      have h0 := congrFun he ⟨0, by decide⟩
      rw [hix, hix] at h0
      change (t.val + 1) / 635 % 50 = t.val / 635 % 50 at h0
      omega

/-- The body's reset condition at coordinates i, -/
abbrev sfirst (i : grid1.Coords) : Prop := (Scalar.cmpi .ne (Scalar.extui (Scalar.cmpi .eq (BitVec.ofNat 32 (i 1).val) 0#32)) 0#32) = 1#1
/-- and its copy-out condition. -/
abbrev slast (i : grid1.Coords) : Prop := k1_cond2 i = 1#1

/-- They hold exactly at the first and at the last edge block of a node block: decided over the 635 edge-block coordinates. -/
theorem scond (t : Fin grid1.N) : (sfirst (grid1.coords t) ↔ t.val % 635 = 0) ∧ (slast (grid1.coords t) ↔ t.val % 635 = 634) := by
  rw [← (scoord t).2]
  exact (by decide +kernel : ∀ j : Fin 635,
    ((Scalar.cmpi .ne (Scalar.extui (Scalar.cmpi .eq (BitVec.ofNat 32 j.val) 0#32)) 0#32) = 1#1 ↔ j.val = 0)
    ∧ ((Scalar.cmpi .ne (Scalar.extui (Scalar.cmpi .eq (BitVec.ofNat 32 j.val) 634#32)) 0#32) = 1#1 ↔ j.val = 634)) (grid1.coords t 1)

/-- The body run: the accumulator (zeroed first when `sfirst`) ends at the sum `P`, which the result receives when `slast`; all else is left as found. -/
theorem srun (c : Dev nD) (i : grid1.Coords) (arg2 : Memref sig .tc .vmem S2048x64 .f32) (harg2 : arg2.IsWhole) (arg3 : Memref sig .tc .vmem S2048 .i32) (harg3 : arg3.IsWhole) (arg4 : Memref sig .tc .vmem S2000x64 .f32) (harg4 : arg4.IsWhole) (arg5 : Memref sig .tc .vmem S2000x64 .f32) (harg5 : arg5.IsWhole)
    (x0 : Vec F S2048x64 .f32) (x1 : Vec F S2048 .i32) (x2 xs P : Vec F S2000x64 .f32)
    (hP : k1_pay2 i x1 x0 (if sfirst i then k1_pay1 else xs) = P) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (if slast i then P else x2) ∗ owns (c : Thread nD τ) arg5 fullShare P) -∗ K ⟨⟩))
      ⊢ wp frame (wpE (defs₀ (F := F)) Variants.none c none) E (cc1__scatter_kernel i arg2 harg2 arg3 harg3 arg4 harg4 arg5 harg5) K := by
  subst hP; simp only [cc1__scatter_kernel_eq_skeleton]; unfold cc1__scatter_kernel_skel owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  by_cases hc0 : sfirst i <;> by_cases hc1 : slast i
  all_goals
    first | rw [if_pos hc0] | rw [if_neg hc0]
    first | rw [if_pos hc1] | rw [if_neg hc1]
    sl_exec (disch := first | exact hc0 | exact hc1)
    sl_step
    iapply Hk
    isplitl [H0]; swap; isplitl [H1]; swap; isplitl [H2]
    all_goals
      iexists _; isplitr; swap
      · first | iexact H0 | iexact H1 | iexact H2 | iexact HS
      ipureintro
      (try sl_unfold_words)
      try rw [read_last_whole _ _ zeros_two]
      (try sl_unfold_words)
      simp only [View.readCov_cons_toLoadRect, View.readAt_eq_ld, harg2.read_unread, harg3.read_unread, harg4.read_unread, harg5.read_unread, View.ld_unit_zero (S := S2000x64) zeros_two, View.ld_unit_zero (S := S2048x64) zeros_two, View.ld_unit_zero (S := S2048) zeros_one]

end Cert.Kernel.Hand

end
-- ==== Proof.K.Sched1.lean ====
import proofs.«180960_j9371618640573_1_alg».proof.Proof.K.SBody

namespace Cert.Kernel.GenP

open Cert.Kernel.Gen Cert.Kernel.Hand

theorem flush1_2 : ∀ t : Fin cfg1.N, (cfg1.win 2).flush t = true ↔ t.val % 635 = 634 := sflush

end Cert.Kernel.GenP
-- ==== Proof.K.S1.lean ====
import proofs.«180960_j9371618640573_1_alg».proof.Proof.K.Sched1
import Idealize.ShloMosaic.Lib.Pipeline.RegionsLoop
import Idealize.ShloMosaic.Lib.Pipeline.FrameSuffix
import Idealize.ShloMosaic.Lib.Ring

noncomputable section

namespace Cert.Kernel.Hand

open Cert.Common Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, as a function of the arrays' contents `V` on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum along the edge blocks of a node block: it restarts from zero whenever `n % 635 = 0`. -/
def acc1 (c : Dev nD) : (n : ℕ) → n < cfg1.N → Vec F S2000x64 .f32
  | 0, h => k1_pay2 (grid1.coords ⟨0, h⟩) (iblk1 V c 1 ⟨0, h⟩) (iblk1 V c 0 ⟨0, h⟩) k1_pay1
  | n + 1, h => k1_pay2 (grid1.coords ⟨n + 1, h⟩) (iblk1 V c 1 ⟨n + 1, h⟩) (iblk1 V c 0 ⟨n + 1, h⟩)
      (if (n + 1) % 635 = 0 then k1_pay1 else acc1 c n (Nat.lt_of_succ_lt h))

abbrev scM1 : Memref sig .tc .vmem S2000x64 .f32 := Memref.whole cc1_scratch0

/-- The invariant before point `t`: the accumulator holds `acc1 (t - 1)`, or anything when `t = 0`. -/
def PhiS1 (c : Dev nD) (t : Fin (cfg1.N + 1)) : sProp 𝕄 :=
  iprop(∃ d, ⌜∀ h : t.val ≠ 0, d = acc1 V c (t.val - 1) (by omega)⌝ ∗ owns (c : Thread nD τ) scM1 fullShare d
    ∗ Pipeline.scopedRestBut spec1 c [cc1_scratch0])

/-- Proof data of the call: the inputs keep their blocks, the result block is the running sum. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ := PhiS1 V c
  q _ := fullShare
  owed _ := 0

theorem after1_2 (c : Dev nD) (t : Fin cfg1.N) : (dat1 V c).after 2 t = acc1 V c t.val t.isLt := by dsimp only [dat1]

/-- What the body finds in an input window is what it leaves there, the window's block. -/
theorem before1_in (c : Dev nD) (t : Fin cfg1.N) :
    (∀ d, (dat1 V c).before 0 t d = (dat1 V c).after 0 t) ∧ (∀ d, (dat1 V c).before 1 t d = (dat1 V c).after 1 t) := by
  constructor <;> intro d <;>
  exact ((dat1 V c).before_in_eq_fetched _ rfl (fun _ => rfl) (fun _ _ _ => rfl) (fun t => by dsimp only [dat1]; rfl) t d).trans
    (by dsimp only [dat1]; rfl)

/-- One step of the running sum from `d`, which is `acc1 (t - 1)` unless point `t` starts a node block. -/
theorem acc1_step (c : Dev nD) (t : Fin cfg1.N) (d : Vec F S2000x64 .f32) (hd : ∀ h : t.val ≠ 0, d = acc1 V c (t.val - 1) (by omega)) :
    k1_pay2 (grid1.coords t) ((dat1 V c).after 1 t) ((dat1 V c).after 0 t) (if sfirst (grid1.coords t) then k1_pay1 else d)
      = (dat1 V c).after 2 t := by
  obtain ⟨n, hn⟩ := t
  cases n with
  | zero => rw [if_pos ((scond _).1.mpr rfl)]; rfl
  | succ n => obtain rfl := hd (Nat.succ_ne_zero n); exact congrArg _ (if_congr (scond ⟨n + 1, hn⟩).1 rfl rfl)

/-- By `srun`: the accumulator advances by `acc1_step`, and the result block receives it exactly when `slast`. -/
theorem body_obligation1 (c : Dev nD) : BodyObligation (dat1 (F := F) V c) (defs₀ (F := F)) Variants.none () Set.univ := fun t => by
  rw [bigSep_W1, bigSep_W1, show (dat1 V c).Φ = PhiS1 V c from rfl,
    show (dat1 V c).owesAt () t.succ = (dat1 V c).owesAt () t.castSucc from rfl]
  dsimp only
  unfold PhiS1
  simp only [(before1_in V c t).1, (before1_in V c t).2]
  iintro ⟨⟨%d, %hd, HS, HR⟩, Ho, ⟨%d0, H0⟩, ⟨%d1, H1⟩, ⟨%d2, H2⟩⟩
  iapply (srun c (grid1.coords t) _ (stage_whole1 0 _) _ (stage_whole1 1 _) _ (stage_whole1 2 _) _ (Memref.isWhole_whole _)
    _ _ _ d _ (acc1_step V c t d hd) Set.univ _)
  iframe H0 H1 H2 HS
  iintro ⟨H0, H1, H2, HS⟩
  iframe H0 H1 Ho
  isplitl [HS HR]
  · iexists _; iframe HS HR; ipureintro; exact fun _ => rfl
  by_cases h : slast (grid1.coords t)
  · rw [if_pos h, show idle1 2 (grid1.coords t) = false from by
      show (!(k1_cond2 (grid1.coords t) == 1#1)) = false; rw [Bool.not_eq_false', beq_iff_eq]; exact h]
    iexact H2
  · rw [if_neg h, show idle1 2 (grid1.coords t) = true from by
        show (!(k1_cond2 (grid1.coords t) == 1#1)) = true; rw [Bool.not_eq_true', beq_eq_false_iff_ne]; exact h,
      show (win1 2).flush t = false from Bool.eq_false_iff.mpr fun hf => h ((scond t).2.mpr ((flush1_2 t).mp hf))]
    iexists d2; iexact H2

/-- At `t = 0` the invariant asks nothing of the accumulator's contents. -/
theorem hin1 (c : Dev nD) : (Pipeline.scopedRest spec1 c : sProp 𝕄) ⊢ (dat1 V c).Φ 0 := by
  rw [scopedRest1_split]; show _ ⊢ PhiS1 V c 0; unfold PhiS1; simp only [scM1, owns_whole]
  iintro ⟨⟨%d, H⟩, R⟩; iexists d; iframe H R; ipureintro; exact fun h => absurd rfl h

/-- The invariant at any `t` gives the accumulator back at some contents. -/
theorem hout1 (c : Dev nD) : (dat1 V c).Φ (Fin.last cfg1.N) ⊢ (Pipeline.scopedRest spec1 c : sProp 𝕄) := by
  rw [scopedRest1_split]; show PhiS1 V c _ ⊢ _; unfold PhiS1; simp only [scM1, owns_whole]
  iintro ⟨%d, -, H, R⟩; iframe R; iexists d; iexact H

end Cert.Kernel.Hand

end
-- ==== Proof.K.Sched2.lean ====
import proofs.«180960_j9371618640573_1_alg».proof.Proof.K.GBody

namespace Cert.Kernel.GenP

open Cert.Kernel.Gen Cert.Kernel.Hand

theorem flush2_3 : ∀ t : Fin cfg2.N, (cfg2.win 3).flush t = true ↔ t.val % 50 = 49 := gFlush_3

end Cert.Kernel.GenP
-- ==== Proof.K.G2.lean ====
import proofs.«180960_j9371618640573_1_alg».proof.Proof.K.Sched2
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem hcond2_0 (t : Fin cfg2.N) : gReset (grid2.coords t) ↔ t.val % 50 = 0 := (gCond_iff t).1

theorem hcond2_1 (t : Fin cfg2.N) : gCopy (grid2.coords t) ↔ t.val % 50 = 49 := (gCond_iff t).2

variable (V : (c : Dev nD) → (b : Ref sig .tc) → Buf (Elt F) ((c : Thread nD τ).loc b))

/-- The part of array `w` that point `t` sees, at the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running sum of the block products over a run of 50 points, restarted from zero at every multiple of 50. -/
def acc2 (c : Dev nD) : (n : ℕ) → n < cfg2.N → Vec F S2048x64 .f32
  | 0, h => k2_pay2 (grid2.coords ⟨0, h⟩) (iblk2 V c 1 ⟨0, h⟩) (iblk2 V c 2 ⟨0, h⟩) (iblk2 V c 0 ⟨0, h⟩) k2_pay1
  | n + 1, h => k2_pay2 (grid2.coords ⟨n + 1, h⟩) (iblk2 V c 1 ⟨n + 1, h⟩) (iblk2 V c 2 ⟨n + 1, h⟩) (iblk2 V c 0 ⟨n + 1, h⟩)
      (if (n + 1) % 50 = 0 then k2_pay1 else acc2 c n (Nat.lt_of_succ_lt h))

abbrev scM2 : Memref sig .tc .vmem S2048x64 .f32 := Memref.whole cc2_scratch0

/-- The invariant at `t`: the accumulator holds `acc2 (t - 1)`, and anything at `t = 0`. -/
def PhiS2 (c : Dev nD) (t : Fin (cfg2.N + 1)) : sProp 𝕄 :=
  iprop(∃ d, ⌜∀ h : t.val ≠ 0, d = acc2 V c (t.val - 1) (by omega)⌝ ∗ owns (c : Thread nD τ) scM2 fullShare d
    ∗ Pipeline.scopedRestBut spec2 c [cc2_scratch0])

/-- Proof data of the call: the inputs are left as found, the output carries the running sum. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => acc2 V c t.val t.isLt
  Φ := PhiS2 V c
  q _ := fullShare
  owed _ := 0

theorem after2_3 (c : Dev nD) (t : Fin cfg2.N) : (dat2 V c).after 3 t = acc2 V c t.val t.isLt := rfl

theorem acc2_first (c : Dev nD) (t : Fin cfg2.N) (h : t.val % 50 = 0) :
    acc2 V c t.val t.isLt = k2_pay2 (grid2.coords t) (iblk2 V c 1 t) (iblk2 V c 2 t) (iblk2 V c 0 t) k2_pay1 := by
  obtain ⟨_ | n, hn⟩ := t
  · rfl
  · exact (congrArg _ (if_pos h) :)

theorem acc2_next (c : Dev nD) (t : Fin cfg2.N) (h : ¬t.val % 50 = 0) :
    acc2 V c t.val t.isLt = k2_pay2 (grid2.coords t) (iblk2 V c 1 t) (iblk2 V c 2 t) (iblk2 V c 0 t)
      (acc2 V c (t.val - 1) (Nat.lt_of_le_of_lt (Nat.sub_le _ _) t.isLt)) := by
  obtain ⟨_ | n, hn⟩ := t
  · exact absurd rfl h
  · exact (congrArg _ (if_neg h) :)

/-- Under the second test the output holds the running sum; otherwise (t ≢ 49) it is as found. -/
theorem leaves2_3 (c : Dev nD) (t : Fin cfg2.N) (d) :
    owns (c : Thread nD τ) (win2_3.stage (cfg2.slots t 3)) fullShare
      (if gCopy (grid2.coords t) then acc2 V c t.val t.isLt else (dat2 V c).before 3 t d) ⊢ (dat2 V c).leavesExact 3 t := by
  by_cases h : gCopy (grid2.coords t)
  · rw [if_pos h]; unfold Dat.leavesExact
    rw [show cfg2.idle 3 (grid2.coords t) = false from by show (!(k2_cond2 _ == 1#1)) = false; rw [(beq_iff_eq (a := k2_cond2 (grid2.coords t))).mpr h]; rfl]
    exact .rfl
  · rw [if_neg h, Dat.leavesExact_idle _ 3 t (by show (!(k2_cond2 _ == 1#1)) = true; rw [beq_false_of_ne (a := k2_cond2 (grid2.coords t)) h]; rfl)
      (Bool.eq_false_iff.mpr fun hf => h ((hcond2_1 t).mpr ((flush2_3 t).mp hf)))]
    iintro H; iexists _; iexact H

/-- One run of the body takes the invariant at `t` to the invariant at `t + 1`: `acc2`'s recursion is the run's own step. -/
theorem body_obligation2 (c : Dev nD) : BodyObligation (dat2 (F := F) V c) (defs₀ (F := F)) Variants.none () Set.univ := fun t => by
  rw [bigSep_W2, bigSep_W2, show (dat2 V c).Φ = PhiS2 V c from rfl]
  dsimp only
  unfold PhiS2
  have hacc : ∀ ds, (∀ hz : t.val ≠ 0, ds = acc2 V c (t.val - 1) (by omega)) →
      k2_pay2 (grid2.coords t) (iblk2 V c 1 t) (iblk2 V c 2 t) (iblk2 V c 0 t) (if gReset (grid2.coords t) then k2_pay1 else ds)
        = acc2 V c t.val t.isLt := fun ds hds => by
    by_cases h0 : t.val % 50 = 0
    · rw [if_pos ((hcond2_0 t).mpr h0), acc2_first V c t h0]
    · rw [if_neg (mt (hcond2_0 t).mp h0), acc2_next V c t h0, hds fun e => h0 (by rw [e])]
  iintro ⟨⟨%ds, %hds, HS, HR⟩, Ho, ⟨%d0, H0⟩, ⟨%d1, H1⟩, ⟨%d2, H2⟩, ⟨%d3, H3⟩⟩
  rw [(dat2 V c).before_in_eq_fetched 0 rfl (fun _ => rfl) (fun _ _ _ => rfl) (fun _ => rfl) t d0,
    (dat2 V c).before_in_eq_fetched 1 rfl (fun _ => rfl) (fun _ _ _ => rfl) (fun _ => rfl) t d1,
    (dat2 V c).before_in_eq_fetched 2 rfl (fun _ => rfl) (fun _ _ _ => rfl) (fun _ => rfl) t d2]
  iapply (gRun2 c (grid2.coords t) _ (stage_whole2 0 _) _ (stage_whole2 1 _) _ (stage_whole2 2 _) _ (stage_whole2 3 _) _ (Memref.isWhole_whole _)
    (iblk2 V c 0 t) (iblk2 V c 1 t) (iblk2 V c 2 t) ((dat2 V c).before 3 t d3) ds Set.univ _)
  isplitl [H0]; · iexact H0
  isplitl [H1]; · iexact H1
  isplitl [H2]; · iexact H2
  isplitl [H3]; · iexact H3
  isplitl [HS]; · iexact HS
  rw [hacc ds hds]
  iintro ⟨H0, H1, H2, H3, HS⟩
  isplitl [HS HR]
  · iexists _; iframe HS HR; ipureintro; exact fun _ => rfl
  isplitl [Ho]; · iexact Ho
  isplitl [H0]; · iexact H0
  isplitl [H1]; · iexact H1
  isplitl [H2]; · iexact H2
  iapply (leaves2_3 V c t d3)
  iexact H3

theorem hin2 (c : Dev nD) : (Pipeline.scopedRest spec2 c : sProp 𝕄) ⊢ (dat2 V c).Φ 0 := by
  rw [scopedRest2_split]; show _ ⊢ PhiS2 V c 0; unfold PhiS2; simp only [scM2, owns_whole]
  iintro ⟨⟨%d, H⟩, R⟩; iexists d; iframe H R; ipureintro; exact fun h => absurd rfl h

theorem hout2 (c : Dev nD) : (dat2 V c).Φ (Fin.last cfg2.N) ⊢ (Pipeline.scopedRest spec2 c : sProp 𝕄) := by
  rw [scopedRest2_split]; show PhiS2 V c _ ⊢ _; unfold PhiS2; simp only [scM2, owns_whole]
  iintro ⟨%d, -, H, R⟩; iframe R; iexists d; iexact H

end Cert.Kernel.Hand

end
-- ==== Proof.K.Sched3.lean ====
import proofs.«180960_j9371618640573_1_alg».proof.Proof.K.SBody

namespace Cert.Kernel.GenP

open Cert.Kernel.Gen Cert.Kernel.Hand

theorem flush3_2 : ∀ t : Fin cfg3.N, (cfg3.win 2).flush t = true ↔ t.val % 635 = 634 := sflush

end Cert.Kernel.GenP
-- ==== Proof.K.S3.lean ====
import proofs.«180960_j9371618640573_1_alg».proof.Proof.K.Sched3
import Idealize.ShloMosaic.Lib.Pipeline.RegionsLoop
import Idealize.ShloMosaic.Lib.Pipeline.FrameSuffix
import Idealize.ShloMosaic.Lib.Ring

noncomputable section

namespace Cert.Kernel.Hand

open Cert.Common Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, as a function of the arrays' contents `V` on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The running sum along the edge blocks of a node block: it restarts from zero whenever `n % 635 = 0`. -/
def acc3 (c : Dev nD) : (n : ℕ) → n < cfg3.N → Vec F S2000x64 .f32
  | 0, h => k3_pay2 (grid3.coords ⟨0, h⟩) (iblk3 V c 1 ⟨0, h⟩) (iblk3 V c 0 ⟨0, h⟩) k3_pay1
  | n + 1, h => k3_pay2 (grid3.coords ⟨n + 1, h⟩) (iblk3 V c 1 ⟨n + 1, h⟩) (iblk3 V c 0 ⟨n + 1, h⟩)
      (if (n + 1) % 635 = 0 then k3_pay1 else acc3 c n (Nat.lt_of_succ_lt h))

abbrev scM3 : Memref sig .tc .vmem S2000x64 .f32 := Memref.whole cc3_scratch0

/-- The invariant before point `t`: the accumulator holds `acc3 (t - 1)`, or anything when `t = 0`. -/
def PhiS3 (c : Dev nD) (t : Fin (cfg3.N + 1)) : sProp 𝕄 :=
  iprop(∃ d, ⌜∀ h : t.val ≠ 0, d = acc3 V c (t.val - 1) (by omega)⌝ ∗ owns (c : Thread nD τ) scM3 fullShare d
    ∗ Pipeline.scopedRestBut spec3 c [cc3_scratch0])

/-- Proof data of the call: the inputs keep their blocks, the result block is the running sum. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ := PhiS3 V c
  q _ := fullShare
  owed _ := 0

theorem after3_2 (c : Dev nD) (t : Fin cfg3.N) : (dat3 V c).after 2 t = acc3 V c t.val t.isLt := by dsimp only [dat3]

/-- What the body finds in an input window is what it leaves there, the window's block. -/
theorem before3_in (c : Dev nD) (t : Fin cfg3.N) :
    (∀ d, (dat3 V c).before 0 t d = (dat3 V c).after 0 t) ∧ (∀ d, (dat3 V c).before 1 t d = (dat3 V c).after 1 t) := by
  constructor <;> intro d <;>
  exact ((dat3 V c).before_in_eq_fetched _ rfl (fun _ => rfl) (fun _ _ _ => rfl) (fun t => by dsimp only [dat3]; rfl) t d).trans
    (by dsimp only [dat3]; rfl)

/-- One step of the running sum from `d`, which is `acc3 (t - 1)` unless point `t` starts a node block. -/
theorem acc3_step (c : Dev nD) (t : Fin cfg3.N) (d : Vec F S2000x64 .f32) (hd : ∀ h : t.val ≠ 0, d = acc3 V c (t.val - 1) (by omega)) :
    k3_pay2 (grid3.coords t) ((dat3 V c).after 1 t) ((dat3 V c).after 0 t) (if sfirst (grid3.coords t) then k3_pay1 else d)
      = (dat3 V c).after 2 t := by
  obtain ⟨n, hn⟩ := t
  cases n with
  | zero => rw [if_pos ((scond _).1.mpr rfl)]; rfl
  | succ n => obtain rfl := hd (Nat.succ_ne_zero n); exact congrArg _ (if_congr (scond ⟨n + 1, hn⟩).1 rfl rfl)

/-- By `srun`: the accumulator advances by `acc3_step`, and the result block receives it exactly when `slast`. -/
theorem body_obligation3 (c : Dev nD) : BodyObligation (dat3 (F := F) V c) (defs₀ (F := F)) Variants.none () Set.univ := fun t => by
  rw [bigSep_W3, bigSep_W3, show (dat3 V c).Φ = PhiS3 V c from rfl,
    show (dat3 V c).owesAt () t.succ = (dat3 V c).owesAt () t.castSucc from rfl]
  dsimp only
  unfold PhiS3
  simp only [(before3_in V c t).1, (before3_in V c t).2]
  iintro ⟨⟨%d, %hd, HS, HR⟩, Ho, ⟨%d0, H0⟩, ⟨%d1, H1⟩, ⟨%d2, H2⟩⟩
  iapply (srun c (grid3.coords t) _ (stage_whole3 0 _) _ (stage_whole3 1 _) _ (stage_whole3 2 _) _ (Memref.isWhole_whole _)
    _ _ _ d _ (acc3_step V c t d hd) Set.univ _)
  iframe H0 H1 H2 HS
  iintro ⟨H0, H1, H2, HS⟩
  iframe H0 H1 Ho
  isplitl [HS HR]
  · iexists _; iframe HS HR; ipureintro; exact fun _ => rfl
  by_cases h : slast (grid3.coords t)
  · rw [if_pos h, show idle3 2 (grid3.coords t) = false from by
      show (!(k3_cond2 (grid3.coords t) == 1#1)) = false; rw [Bool.not_eq_false', beq_iff_eq]; exact h]
    iexact H2
  · rw [if_neg h, show idle3 2 (grid3.coords t) = true from by
        show (!(k3_cond2 (grid3.coords t) == 1#1)) = true; rw [Bool.not_eq_true', beq_eq_false_iff_ne]; exact h,
      show (win3 2).flush t = false from Bool.eq_false_iff.mpr fun hf => h ((scond t).2.mpr ((flush3_2 t).mp hf))]
    iexists d2; iexact H2

/-- At `t = 0` the invariant asks nothing of the accumulator's contents. -/
theorem hin3 (c : Dev nD) : (Pipeline.scopedRest spec3 c : sProp 𝕄) ⊢ (dat3 V c).Φ 0 := by
  rw [scopedRest3_split]; show _ ⊢ PhiS3 V c 0; unfold PhiS3; simp only [scM3, owns_whole]
  iintro ⟨⟨%d, H⟩, R⟩; iexists d; iframe H R; ipureintro; exact fun h => absurd rfl h

/-- The invariant at any `t` gives the accumulator back at some contents. -/
theorem hout3 (c : Dev nD) : (dat3 V c).Φ (Fin.last cfg3.N) ⊢ (Pipeline.scopedRest spec3 c : sProp 𝕄) := by
  rw [scopedRest3_split]; show PhiS3 V c _ ⊢ _; unfold PhiS3; simp only [scM3, owns_whole]
  iintro ⟨%d, -, H, R⟩; iframe R; iexists d; iexact H

end Cert.Kernel.Hand

end
-- ==== Proof.K.Sched4.lean ====
import proofs.«180960_j9371618640573_1_alg».proof.Proof.K.GBody

namespace Cert.Kernel.GenP

open Cert.Kernel.Gen Cert.Kernel.Hand

theorem flush4_3 : ∀ t : Fin cfg4.N, (cfg4.win 3).flush t = true ↔ t.val % 50 = 49 := gFlush_3

end Cert.Kernel.GenP
-- ==== Proof.K.G4.lean ====
import proofs.«180960_j9371618640573_1_alg».proof.Proof.K.Sched4
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem hcond4_0 (t : Fin cfg4.N) : gReset (grid4.coords t) ↔ t.val % 50 = 0 := (gCond_iff t).1

theorem hcond4_1 (t : Fin cfg4.N) : gCopy (grid4.coords t) ↔ t.val % 50 = 49 := (gCond_iff t).2

variable (V : (c : Dev nD) → (b : Ref sig .tc) → Buf (Elt F) ((c : Thread nD τ).loc b))

/-- The part of array `w` that point `t` sees, at the entry contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The running sum of the block products over a run of 50 points, restarted from zero at every multiple of 50. -/
def acc4 (c : Dev nD) : (n : ℕ) → n < cfg4.N → Vec F S2048x64 .f32
  | 0, h => k4_pay2 (grid4.coords ⟨0, h⟩) (iblk4 V c 1 ⟨0, h⟩) (iblk4 V c 2 ⟨0, h⟩) (iblk4 V c 0 ⟨0, h⟩) k4_pay1
  | n + 1, h => k4_pay2 (grid4.coords ⟨n + 1, h⟩) (iblk4 V c 1 ⟨n + 1, h⟩) (iblk4 V c 2 ⟨n + 1, h⟩) (iblk4 V c 0 ⟨n + 1, h⟩)
      (if (n + 1) % 50 = 0 then k4_pay1 else acc4 c n (Nat.lt_of_succ_lt h))

abbrev scM4 : Memref sig .tc .vmem S2048x64 .f32 := Memref.whole cc4_scratch0

/-- The invariant at `t`: the accumulator holds `acc4 (t - 1)`, and anything at `t = 0`. -/
def PhiS4 (c : Dev nD) (t : Fin (cfg4.N + 1)) : sProp 𝕄 :=
  iprop(∃ d, ⌜∀ h : t.val ≠ 0, d = acc4 V c (t.val - 1) (by omega)⌝ ∗ owns (c : Thread nD τ) scM4 fullShare d
    ∗ Pipeline.scopedRestBut spec4 c [cc4_scratch0])

/-- Proof data of the call: the inputs are left as found, the output carries the running sum. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => acc4 V c t.val t.isLt
  Φ := PhiS4 V c
  q _ := fullShare
  owed _ := 0

theorem after4_3 (c : Dev nD) (t : Fin cfg4.N) : (dat4 V c).after 3 t = acc4 V c t.val t.isLt := rfl

theorem acc4_first (c : Dev nD) (t : Fin cfg4.N) (h : t.val % 50 = 0) :
    acc4 V c t.val t.isLt = k4_pay2 (grid4.coords t) (iblk4 V c 1 t) (iblk4 V c 2 t) (iblk4 V c 0 t) k4_pay1 := by
  obtain ⟨_ | n, hn⟩ := t
  · rfl
  · exact (congrArg _ (if_pos h) :)

theorem acc4_next (c : Dev nD) (t : Fin cfg4.N) (h : ¬t.val % 50 = 0) :
    acc4 V c t.val t.isLt = k4_pay2 (grid4.coords t) (iblk4 V c 1 t) (iblk4 V c 2 t) (iblk4 V c 0 t)
      (acc4 V c (t.val - 1) (Nat.lt_of_le_of_lt (Nat.sub_le _ _) t.isLt)) := by
  obtain ⟨_ | n, hn⟩ := t
  · exact absurd rfl h
  · exact (congrArg _ (if_neg h) :)

/-- Under the second test the output holds the running sum; otherwise (t ≢ 49) it is as found. -/
theorem leaves4_3 (c : Dev nD) (t : Fin cfg4.N) (d) :
    owns (c : Thread nD τ) (win4_3.stage (cfg4.slots t 3)) fullShare
      (if gCopy (grid4.coords t) then acc4 V c t.val t.isLt else (dat4 V c).before 3 t d) ⊢ (dat4 V c).leavesExact 3 t := by
  by_cases h : gCopy (grid4.coords t)
  · rw [if_pos h]; unfold Dat.leavesExact
    rw [show cfg4.idle 3 (grid4.coords t) = false from by show (!(k4_cond2 _ == 1#1)) = false; rw [(beq_iff_eq (a := k4_cond2 (grid4.coords t))).mpr h]; rfl]
    exact .rfl
  · rw [if_neg h, Dat.leavesExact_idle _ 3 t (by show (!(k4_cond2 _ == 1#1)) = true; rw [beq_false_of_ne (a := k4_cond2 (grid4.coords t)) h]; rfl)
      (Bool.eq_false_iff.mpr fun hf => h ((hcond4_1 t).mpr ((flush4_3 t).mp hf)))]
    iintro H; iexists _; iexact H

/-- One run of the body takes the invariant at `t` to the invariant at `t + 1`: `acc4`'s recursion is the run's own step. -/
theorem body_obligation4 (c : Dev nD) : BodyObligation (dat4 (F := F) V c) (defs₀ (F := F)) Variants.none () Set.univ := fun t => by
  rw [bigSep_W4, bigSep_W4, show (dat4 V c).Φ = PhiS4 V c from rfl]
  dsimp only
  unfold PhiS4
  have hacc : ∀ ds, (∀ hz : t.val ≠ 0, ds = acc4 V c (t.val - 1) (by omega)) →
      k4_pay2 (grid4.coords t) (iblk4 V c 1 t) (iblk4 V c 2 t) (iblk4 V c 0 t) (if gReset (grid4.coords t) then k4_pay1 else ds)
        = acc4 V c t.val t.isLt := fun ds hds => by
    by_cases h0 : t.val % 50 = 0
    · rw [if_pos ((hcond4_0 t).mpr h0), acc4_first V c t h0]
    · rw [if_neg (mt (hcond4_0 t).mp h0), acc4_next V c t h0, hds fun e => h0 (by rw [e])]
  iintro ⟨⟨%ds, %hds, HS, HR⟩, Ho, ⟨%d0, H0⟩, ⟨%d1, H1⟩, ⟨%d2, H2⟩, ⟨%d3, H3⟩⟩
  rw [(dat4 V c).before_in_eq_fetched 0 rfl (fun _ => rfl) (fun _ _ _ => rfl) (fun _ => rfl) t d0,
    (dat4 V c).before_in_eq_fetched 1 rfl (fun _ => rfl) (fun _ _ _ => rfl) (fun _ => rfl) t d1,
    (dat4 V c).before_in_eq_fetched 2 rfl (fun _ => rfl) (fun _ _ _ => rfl) (fun _ => rfl) t d2]
  iapply (gRun4 c (grid4.coords t) _ (stage_whole4 0 _) _ (stage_whole4 1 _) _ (stage_whole4 2 _) _ (stage_whole4 3 _) _ (Memref.isWhole_whole _)
    (iblk4 V c 0 t) (iblk4 V c 1 t) (iblk4 V c 2 t) ((dat4 V c).before 3 t d3) ds Set.univ _)
  isplitl [H0]; · iexact H0
  isplitl [H1]; · iexact H1
  isplitl [H2]; · iexact H2
  isplitl [H3]; · iexact H3
  isplitl [HS]; · iexact HS
  rw [hacc ds hds]
  iintro ⟨H0, H1, H2, H3, HS⟩
  isplitl [HS HR]
  · iexists _; iframe HS HR; ipureintro; exact fun _ => rfl
  isplitl [Ho]; · iexact Ho
  isplitl [H0]; · iexact H0
  isplitl [H1]; · iexact H1
  isplitl [H2]; · iexact H2
  iapply (leaves4_3 V c t d3)
  iexact H3

theorem hin4 (c : Dev nD) : (Pipeline.scopedRest spec4 c : sProp 𝕄) ⊢ (dat4 V c).Φ 0 := by
  rw [scopedRest4_split]; show _ ⊢ PhiS4 V c 0; unfold PhiS4; simp only [scM4, owns_whole]
  iintro ⟨⟨%d, H⟩, R⟩; iexists d; iframe H R; ipureintro; exact fun h => absurd rfl h

theorem hout4 (c : Dev nD) : (dat4 V c).Φ (Fin.last cfg4.N) ⊢ (Pipeline.scopedRest spec4 c : sProp 𝕄) := by
  rw [scopedRest4_split]; show PhiS4 V c _ ⊢ _; unfold PhiS4; simp only [scM4, owns_whole]
  iintro ⟨%d, -, H, R⟩; iframe R; iexists d; iexact H

end Cert.Kernel.Hand

end
-- ==== Proof.K.Sched5.lean ====
import proofs.«180960_j9371618640573_1_alg».proof.Proof.K.SBody

namespace Cert.Kernel.GenP

open Cert.Kernel.Gen Cert.Kernel.Hand

theorem flush5_2 : ∀ t : Fin cfg5.N, (cfg5.win 2).flush t = true ↔ t.val % 635 = 634 := sflush

end Cert.Kernel.GenP
-- ==== Proof.K.S5.lean ====
import proofs.«180960_j9371618640573_1_alg».proof.Proof.K.Sched5
import Idealize.ShloMosaic.Lib.Pipeline.RegionsLoop
import Idealize.ShloMosaic.Lib.Pipeline.FrameSuffix
import Idealize.ShloMosaic.Lib.Ring

noncomputable section

namespace Cert.Kernel.Hand

open Cert.Common Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, as a function of the arrays' contents `V` on entry. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The running sum along the edge blocks of a node block: it restarts from zero whenever `n % 635 = 0`. -/
def acc5 (c : Dev nD) : (n : ℕ) → n < cfg5.N → Vec F S2000x64 .f32
  | 0, h => k5_pay2 (grid5.coords ⟨0, h⟩) (iblk5 V c 1 ⟨0, h⟩) (iblk5 V c 0 ⟨0, h⟩) k5_pay1
  | n + 1, h => k5_pay2 (grid5.coords ⟨n + 1, h⟩) (iblk5 V c 1 ⟨n + 1, h⟩) (iblk5 V c 0 ⟨n + 1, h⟩)
      (if (n + 1) % 635 = 0 then k5_pay1 else acc5 c n (Nat.lt_of_succ_lt h))

abbrev scM5 : Memref sig .tc .vmem S2000x64 .f32 := Memref.whole cc5_scratch0

/-- The invariant before point `t`: the accumulator holds `acc5 (t - 1)`, or anything when `t = 0`. -/
def PhiS5 (c : Dev nD) (t : Fin (cfg5.N + 1)) : sProp 𝕄 :=
  iprop(∃ d, ⌜∀ h : t.val ≠ 0, d = acc5 V c (t.val - 1) (by omega)⌝ ∗ owns (c : Thread nD τ) scM5 fullShare d
    ∗ Pipeline.scopedRestBut spec5 c [cc5_scratch0])

/-- Proof data of the call: the inputs keep their blocks, the result block is the running sum. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ := PhiS5 V c
  q _ := fullShare
  owed _ := 0

theorem after5_2 (c : Dev nD) (t : Fin cfg5.N) : (dat5 V c).after 2 t = acc5 V c t.val t.isLt := by dsimp only [dat5]

/-- What the body finds in an input window is what it leaves there, the window's block. -/
theorem before5_in (c : Dev nD) (t : Fin cfg5.N) :
    (∀ d, (dat5 V c).before 0 t d = (dat5 V c).after 0 t) ∧ (∀ d, (dat5 V c).before 1 t d = (dat5 V c).after 1 t) := by
  constructor <;> intro d <;>
  exact ((dat5 V c).before_in_eq_fetched _ rfl (fun _ => rfl) (fun _ _ _ => rfl) (fun t => by dsimp only [dat5]; rfl) t d).trans
    (by dsimp only [dat5]; rfl)

/-- One step of the running sum from `d`, which is `acc5 (t - 1)` unless point `t` starts a node block. -/
theorem acc5_step (c : Dev nD) (t : Fin cfg5.N) (d : Vec F S2000x64 .f32) (hd : ∀ h : t.val ≠ 0, d = acc5 V c (t.val - 1) (by omega)) :
    k5_pay2 (grid5.coords t) ((dat5 V c).after 1 t) ((dat5 V c).after 0 t) (if sfirst (grid5.coords t) then k5_pay1 else d)
      = (dat5 V c).after 2 t := by
  obtain ⟨n, hn⟩ := t
  cases n with
  | zero => rw [if_pos ((scond _).1.mpr rfl)]; rfl
  | succ n => obtain rfl := hd (Nat.succ_ne_zero n); exact congrArg _ (if_congr (scond ⟨n + 1, hn⟩).1 rfl rfl)

/-- By `srun`: the accumulator advances by `acc5_step`, and the result block receives it exactly when `slast`. -/
theorem body_obligation5 (c : Dev nD) : BodyObligation (dat5 (F := F) V c) (defs₀ (F := F)) Variants.none () Set.univ := fun t => by
  rw [bigSep_W5, bigSep_W5, show (dat5 V c).Φ = PhiS5 V c from rfl,
    show (dat5 V c).owesAt () t.succ = (dat5 V c).owesAt () t.castSucc from rfl]
  dsimp only
  unfold PhiS5
  simp only [(before5_in V c t).1, (before5_in V c t).2]
  iintro ⟨⟨%d, %hd, HS, HR⟩, Ho, ⟨%d0, H0⟩, ⟨%d1, H1⟩, ⟨%d2, H2⟩⟩
  iapply (srun c (grid5.coords t) _ (stage_whole5 0 _) _ (stage_whole5 1 _) _ (stage_whole5 2 _) _ (Memref.isWhole_whole _)
    _ _ _ d _ (acc5_step V c t d hd) Set.univ _)
  iframe H0 H1 H2 HS
  iintro ⟨H0, H1, H2, HS⟩
  iframe H0 H1 Ho
  isplitl [HS HR]
  · iexists _; iframe HS HR; ipureintro; exact fun _ => rfl
  by_cases h : slast (grid5.coords t)
  · rw [if_pos h, show idle5 2 (grid5.coords t) = false from by
      show (!(k5_cond2 (grid5.coords t) == 1#1)) = false; rw [Bool.not_eq_false', beq_iff_eq]; exact h]
    iexact H2
  · rw [if_neg h, show idle5 2 (grid5.coords t) = true from by
        show (!(k5_cond2 (grid5.coords t) == 1#1)) = true; rw [Bool.not_eq_true', beq_eq_false_iff_ne]; exact h,
      show (win5 2).flush t = false from Bool.eq_false_iff.mpr fun hf => h ((scond t).2.mpr ((flush5_2 t).mp hf))]
    iexists d2; iexact H2

/-- At `t = 0` the invariant asks nothing of the accumulator's contents. -/
theorem hin5 (c : Dev nD) : (Pipeline.scopedRest spec5 c : sProp 𝕄) ⊢ (dat5 V c).Φ 0 := by
  rw [scopedRest5_split]; show _ ⊢ PhiS5 V c 0; unfold PhiS5; simp only [scM5, owns_whole]
  iintro ⟨⟨%d, H⟩, R⟩; iexists d; iframe H R; ipureintro; exact fun h => absurd rfl h

/-- The invariant at any `t` gives the accumulator back at some contents. -/
theorem hout5 (c : Dev nD) : (dat5 V c).Φ (Fin.last cfg5.N) ⊢ (Pipeline.scopedRest spec5 c : sProp 𝕄) := by
  rw [scopedRest5_split]; show PhiS5 V c _ ⊢ _; unfold PhiS5; simp only [scM5, owns_whole]
  iintro ⟨%d, -, H, R⟩; iframe R; iexists d; iexact H

end Cert.Kernel.Hand

end
-- ==== Proof.K.Sched6.lean ====
import proofs.«180960_j9371618640573_1_alg».proof.Proof.Gen.Kernel
import Idealize.ShloMosaic.Lib.Pipeline.Kit

noncomputable section

namespace Cert.Kernel.GenP

open Cert.Kernel.Gen
open Idealize.ShloMosaic Idealize.ShloMosaic.TcCoe
open Idealize.SL Idealize.SL.Sem

variable {F : FTy → Type} [FloatOps F]

/-- Every point of the linear head writes its own row block back. -/
theorem flush6_3 : ∀ t : Fin cfg6.N, (cfg6.win 3).flush t = true :=
  (by decide +kernel : ∀ t : Fin grid6.N, win6_3.flush t = true)

abbrev st6_0 (t : Fin cfg6.N) := (cfg6.win 0).stage (cfg6.slots t 0)
abbrev st6_1 (t : Fin cfg6.N) := (cfg6.win 1).stage (cfg6.slots t 1)
abbrev st6_2 (t : Fin cfg6.N) := (cfg6.win 2).stage (cfg6.slots t 2)
abbrev st6_3 (t : Fin cfg6.N) := (cfg6.win 3).stage (cfg6.slots t 3)

abbrev bodyAt6 (t : Fin cfg6.N) : Prog (TpuEff nD τ sig (Elt F) Λ₀ .tc) PUnit :=
  cc6__linear_kernel (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (win6_3.stage (cfg6.slots t 3)) (hstage6_3 ((cfg6.slots t 3).cast nbuf6_3))

end Cert.Kernel.GenP

end
-- ==== Proof.K.L6.lean ====
import proofs.«180960_j9371618640573_1_alg».proof.Proof.Gen.Kernel.Launch
import proofs.«180960_j9371618640573_1_alg».proof.Proof.Gen.Kernel.Skeleton
import proofs.«180960_j9371618640573_1_alg».proof.Proof.K.Sched6
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The block point `t` writes: its rows of the features times the weight matrix, plus the bias. -/
def out6 (c : Dev nD) (t : Fin cfg6.N) : Vec F S2000x64 .f32 :=
  k6_pay1 (iblk6 V c 0 t) (iblk6 V c 1 t) (iblk6 V c 2 t)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 V c t
  Φ _ := Pipeline.scopedRest (Ix := Unit) (Name := ℕ) (U := UR sig nD τ) (Lvl := ℕ) (Val := Elt F) spec6 c
  q _ := fullShare
  owed _ := 0

theorem A_eq6 (c : Dev nD) (w : Fin cfg6.W) : (dat6 V c).A w = V c (Pipeline.arrRef spec6 w) := by
  dsimp only [dat6]

theorem after6_3 (c : Dev nD) (t : Fin cfg6.N) : (dat6 V c).after 3 t = out6 V c t := by dsimp only [dat6]

theorem before6 (c : Dev nD) (t : Fin cfg6.N) : (∀ d, (dat6 V c).before 0 t d = (dat6 V c).after 0 t)
    ∧ (∀ d, (dat6 V c).before 1 t d = (dat6 V c).after 1 t) ∧ ∀ d, (dat6 V c).before 2 t d = (dat6 V c).after 2 t :=
  ⟨(dat6 V c).before_in_eq_fetched 0 rfl (fun _ => rfl) (fun _ _ _ => rfl) (fun _ => rfl) t,
    (dat6 V c).before_in_eq_fetched 1 rfl (fun _ => rfl) (fun _ _ _ => rfl) (fun _ => rfl) t,
    (dat6 V c).before_in_eq_fetched 2 rfl (fun _ => rfl) (fun _ _ _ => rfl) (fun _ => rfl) t⟩

theorem hz6_2 : (![0, 0] : Fin 2 → Nat) = fun _ => 0 := funext fun a => by fin_cases a <;> rfl
theorem hz6_1 : (![0] : Fin 1 → Nat) = fun _ => 0 := funext fun a => by fin_cases a; rfl

theorem sound_kernel6 (c : Dev nD) (E : Set ℕ) (i : grid6.Coords)
    (arg1 : Memref sig .tc .vmem S2000x64 .f32) (harg1 : arg1.IsWhole)
    (arg2 : Memref sig .tc .vmem S64x64 .f32) (harg2 : arg2.IsWhole)
    (arg3 : Memref sig .tc .vmem S64 .f32) (harg3 : arg3.IsWhole)
    (arg4 : Memref sig .tc .vmem S2000x64 .f32) (harg4 : arg4.IsWhole)
    (x0 : Vec F S2000x64 .f32) (x1 : Vec F S64x64 .f32) (x2 : Vec F S64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k6_pay1 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _
      (fun y => ⟨_, List.mem_singleton_self _, View.mem_set_unit_zero hz6_2 inb_S2000x64_S2000x64_0_0 y⟩),
    View.canon_unit_zero hz6_2]
  simp only [View.readAt_eq_ld, View.ld_unit_zero (S := S2000x64) hz6_2, View.ld_unit_zero (S := S64x64) hz6_2,
    View.ld_unit_zero (S := S64) hz6_1]

theorem body_obligation6 (c : Dev nD) : BodyObligation (dat6 (F := F) V c) (defs₀ (F := F)) Variants.none () Set.univ := fun t => by
  rw [bigSep_W6, bigSep_W6]
  simp only [(before6 V c t).1, (before6 V c t).2.1, (before6 V c t).2.2]
  rw [show (dat6 V c).Φ t.succ = (dat6 V c).Φ t.castSucc from rfl,
    show (dat6 V c).owesAt () t.succ = (dat6 V c).owesAt () t.castSucc from rfl]
  show _ ⊢ wp _ _ _ (bodyAt6 t) _
  iintro ⟨HΦ, Ho, ⟨%d0, H0⟩, ⟨%d1, H1⟩, ⟨%d2, H2⟩, ⟨%d3, H3⟩⟩
  iapply (sound_kernel6 c Set.univ _ _ _ _ _ _ _ _ _ ((dat6 V c).after 0 t) ((dat6 V c).after 1 t) ((dat6 V c).after 2 t) _)
  iframe H0 H1 H2
  isplitl [H3]; · iexists _; iexact H3
  iintro ⟨H0, H1, H2, H3⟩
  iframe HΦ Ho H0 H1 H2
  iexact H3

theorem hin6 (c : Dev nD) : (Pipeline.scopedRest (Ix := Unit) (Name := ℕ) (U := UR sig nD τ) (Lvl := ℕ) (Val := Elt F) spec6 c : sProp 𝕄) ⊢ (dat6 V c).Φ 0 := by
  dsimp only [dat6]; exact .rfl

theorem hout6 (c : Dev nD) : (dat6 V c).Φ (Fin.last cfg6.N) ⊢ (Pipeline.scopedRest (Ix := Unit) (Name := ℕ) (U := UR sig nD τ) (Lvl := ℕ) (Val := Elt F) spec6 c : sProp 𝕄) := by
  dsimp only [dat6]; exact .rfl

end Cert.Kernel.Hand

end
-- ==== Proof.RegOf.lean ====
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : Nat} {τ : Topo} {sig : RefSig} {Λ₀ : Idealize.SL.Sem.Labels} {F : FTy → Type} [FloatOps F] {P : Type} [Fintype P]

local notation "𝕄" => MT nD τ sig Unit (Elt F) ℕ (UR sig nD τ) ℕ

/-- `V` read at the references `Ref sig .tc`. -/
abbrev tcOf (V : Dev nD → Valuation τ sig (Elt F)) : (c : Dev nD) → (b : Ref sig .tc) → Buf (Elt F) ((c : Thread nD τ).loc b) := fun c b => V c b

/-- Resetting `r` in `V = W` to what `W'` holds there gives `W'`, when `W'` is `W` reset at `r`. -/
theorem upd_eq {V W W' : Valuation τ sig (Elt F)} {r : Ref sig .tc} {o} (hV : V = W) (hW : W' = Function.update W r o) :
    Function.update V r (W' r) = W' := by
  rw [hV, hW, Function.update_self]

/-- The part of a core's state that is the same between any two calls. -/
abbrev R (c : Dev nD) : sProp 𝕄 := iprop((∃ r, prngReg c r) ∗ ∃ W, owes (c : Thread nD τ) (0 : CellTallies nD τ sig Unit) W)

set_option backward.isDefEq.respectTransparency.types false in
/-- A call that reads its arrays off `V` and writes the one array of window `wOut`, as a segment of the run from `V` to `V'`. -/
def regOf (cfgs : P → Cfg sig Λ₀) (defs₀ : Defs nD τ sig (Elt F) Λ₀)
    (pdats : (p : P) → (c : Dev nD) → Dat τ (Elt F) Unit ℕ (UR sig nD τ) ℕ (cfgs p) c)
    {p : P} (lf : Pipeline.LaunchFacts (nD := nD) (τ := τ) cfgs p) (wOut : Fin (cfgs p).W)
    (V V' : Dev nD → Valuation τ sig (Elt F))
    (hbody : ∀ c, BodyObligation (pdats p c) defs₀ Variants.none () Set.univ)
    (hin : ∀ c, (Pipeline.scopedRest (cfgs p).spec c : sProp 𝕄) ⊢ (pdats p c).Φ 0)
    (hout : ∀ c, (pdats p c).Φ (Fin.last (cfgs p).N) ⊢ (Pipeline.scopedRest (cfgs p).spec c : sProp 𝕄))
    (hio : ∀ w, w ≠ wOut → ((cfgs p).win w).isOut = false := by decide)
    (hV' : ∀ c, V' c = Function.update (V c) (Pipeline.arrRef (cfgs p).spec wOut) ((pdats p c).arrAt wOut (cfgs p).N) := by exact fun _ => rfl)
    (hA : ∀ c w, (pdats p c).A w = V c (Pipeline.arrRef (cfgs p).spec w) := by exact fun _ _ => rfl)
    (hq : ∀ c w, (pdats p c).q w = fullShare := by exact fun _ _ => rfl)
    (howed : ∀ c t, (pdats p c).owed t = 0 := by exact fun _ _ => rfl)
    (hrec : ∀ c, (pdats p c).recorded 0 = Set.univ := by exact fun _ => rfl) :
    Pipeline.RegionSeg (fun q => (cfgs q).toPCfg) (fun q => (cfgs q).toPCfg_adm) pdats () defs₀ Variants.none (fun _ => ∅) (fun _ _ => 0) p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ _ _ p howed
  pre c := iprop(StableHlo.held (c : Thread nD τ) (Pipeline.ucRefs τ sig) (V c) ∗ R c)
  post c := iprop(StableHlo.held (c : Thread nD τ) (Pipeline.ucRefs τ sig) (V' c) ∗ R c)
  X _ := BI.emp
  Y _ := BI.emp
  Z c := iprop(Pipeline.unscopedRest (cfgs p).spec c (fun b => V c b) ∗ ∃ r, prngReg c r)
  hentry c := by
    rw [Pipeline.ownSems0_none]
    have hsplit := Pipeline.arrays_of_unscopedBufs (p := p) (fun q => (cfgs q).toPCfg) (fun q => (cfgs q).toPCfg_adm) pdats lf.win lf.arr_whole c
      ((pdats p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl ((hrec c).symm ▸ Set.mem_univ x)
      iexact HO
    isplitr; · iempintro
    isplitl [Hrest]; · iexact Hrest
    iexact Hp
  hin c := by
    iintro ⟨-, -, Hr⟩
    iapply (hin c)
    iexact Hr
  hout c := by
    rw [Pipeline.ownSems0_none]
    iintro H
    isplitr; · iempintro
    isplitr; · iempintro
    iapply (hout c)
    iexact H
  hexit c := by
    have hne (b : Ref sig .tc) (hb : b ≠ Pipeline.arrRef (cfgs p).spec wOut) : V' c b = V c b := by
      rw [hV']; exact Function.update_of_ne (StableHlo.devRef_ne_of_ne hb) _ _
    have hF (w) : V' c (Pipeline.arrRef (cfgs p).spec w) = (pdats p c).arrAt w (cfgs p).N := by
      by_cases hw : w = wOut
      · subst hw; rw [hV']; exact Function.update_self _ _ _
      · exact (hne _ fun h => hw (lf.win.arr_inj h)).trans (((pdats p c).arrAt_in w (hio w hw) _).trans (hA c w)).symm
    have hjoin := Pipeline.unscopedBufs_of_arrays (p := p) (fun q => (cfgs q).toPCfg) (fun q => (cfgs q).toPCfg_adm) lf.win
      lf.arr_whole c pdats ((pdats p c).share_full (hq c))
      (fun b => V c b) (fun b => V' c b) ((pdats p c).arrAt · (cfgs p).N)
      (fun w => (hF w).symm)
      (fun b hb => hne b fun h => hb (h ▸ Finset.mem_image.mpr ⟨wOut, Finset.mem_univ _, rfl⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin; rw [howed c]
    icases HO with ⟨%W, -, HO⟩; iexists W; iexact HO

end Cert

end
-- ==== Proof.K.Family.lean ====
import proofs.«180960_j9371618640573_1_alg».proof.Proof.K.G0
import proofs.«180960_j9371618640573_1_alg».proof.Proof.K.S1
import proofs.«180960_j9371618640573_1_alg».proof.Proof.K.G2
import proofs.«180960_j9371618640573_1_alg».proof.Proof.K.S3
import proofs.«180960_j9371618640573_1_alg».proof.Proof.K.G4
import proofs.«180960_j9371618640573_1_alg».proof.Proof.K.S5
import proofs.«180960_j9371618640573_1_alg».proof.Proof.K.L6
import proofs.«180960_j9371618640573_1_alg».proof.Proof.Gen.Kernel.Regions
import proofs.«180960_j9371618640573_1_alg».proof.Proof.RegOf

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffers when call 0 is entered; `U(k+6)` is the same after call `k`: the one array that call writes reset to what the call leaves in it, `o(k+6)`. -/
abbrev U5 (c : Dev nD) : Valuation τ sig (Elt F) := Gen.V5 m c
abbrev T5 := tcOf (U5 m)

def o6 (c : Dev nD) : Buf (Elt F) ((c : Thread nD τ).loc main_v39) := (dat0 (T5 m) c).arrAt 3 cfg0.N
def U6 (c : Dev nD) : Valuation τ sig (Elt F) := Function.update (U5 m c) main_v39 (o6 m c)
abbrev T6 := tcOf (U6 m)

def o7 (c : Dev nD) : Buf (Elt F) ((c : Thread nD τ).loc main_v40) := (dat1 (T6 m) c).arrAt 2 cfg1.N
def U7 (c : Dev nD) : Valuation τ sig (Elt F) := Function.update (U6 m c) main_v40 (o7 m c)
abbrev T7 := tcOf (U7 m)

def o8 (c : Dev nD) : Buf (Elt F) ((c : Thread nD τ).loc main_v41) := (dat2 (T7 m) c).arrAt 3 cfg2.N
def U8 (c : Dev nD) : Valuation τ sig (Elt F) := Function.update (U7 m c) main_v41 (o8 m c)
abbrev T8 := tcOf (U8 m)

def o9 (c : Dev nD) : Buf (Elt F) ((c : Thread nD τ).loc main_v42) := (dat3 (T8 m) c).arrAt 2 cfg3.N
def U9 (c : Dev nD) : Valuation τ sig (Elt F) := Function.update (U8 m c) main_v42 (o9 m c)
abbrev T9 := tcOf (U9 m)

def o10 (c : Dev nD) : Buf (Elt F) ((c : Thread nD τ).loc main_v43) := (dat4 (T9 m) c).arrAt 3 cfg4.N
def U10 (c : Dev nD) : Valuation τ sig (Elt F) := Function.update (U9 m c) main_v43 (o10 m c)
abbrev T10 := tcOf (U10 m)

def o11 (c : Dev nD) : Buf (Elt F) ((c : Thread nD τ).loc main_v44) := (dat5 (T10 m) c).arrAt 2 cfg5.N
def U11 (c : Dev nD) : Valuation τ sig (Elt F) := Function.update (U10 m c) main_v44 (o11 m c)
abbrev T11 := tcOf (U11 m)

def o12 (c : Dev nD) : Buf (Elt F) ((c : Thread nD τ).loc main_v45) := (dat6 (T11 m) c).arrAt 3 cfg6.N
def U12 (c : Dev nD) : Valuation τ sig (Elt F) := Function.update (U11 m c) main_v45 (o12 m c)

/-- The contents after each call, in the form the generated boundary valuations `Gen.V6 … Gen.V12` take them. -/
def outs : Gen.Outs (F := F) := fun J r c =>
  match J with
  | 6 => U6 m c r | 7 => U7 m c r | 8 => U8 m c r | 9 => U9 m c r | 10 => U10 m c r | 11 => U11 m c r | _ => U12 m c r

/-- The generated boundary valuations at `outs` are `U6 … U12`. -/
theorem V6_eq (c : Dev nD) : Gen.V6 m (outs m) c = U6 m c := upd_eq rfl rfl
theorem V7_eq (c : Dev nD) : Gen.V7 m (outs m) c = U7 m c := upd_eq (V6_eq m c) rfl
theorem V8_eq (c : Dev nD) : Gen.V8 m (outs m) c = U8 m c := upd_eq (V7_eq m c) rfl
theorem V9_eq (c : Dev nD) : Gen.V9 m (outs m) c = U9 m c := upd_eq (V8_eq m c) rfl
theorem V10_eq (c : Dev nD) : Gen.V10 m (outs m) c = U10 m c := upd_eq (V9_eq m c) rfl
theorem V11_eq (c : Dev nD) : Gen.V11 m (outs m) c = U11 m c := upd_eq (V10_eq m c) rfl
theorem V12_eq (c : Dev nD) : Gen.V12 m (outs m) c = U12 m c := upd_eq (V11_eq m c) rfl

abbrev adm : (p : Fin 7) → (pcfgs (F := F) p).Adm := fun p => (cfgs p).toPCfg_adm

/-- Call `p`'s proof data, stated at the valuation the call is entered from. -/
def pdats : (p : Fin 7) → (c : Dev nD) → Dat τ (Elt F) Unit ℕ (UR sig nD τ) ℕ (Pipeline.pin (pcfgs (F := F)) adm p) c
  | ⟨0, _⟩ => fun c => dat0 (T5 m) c
  | ⟨1, _⟩ => fun c => dat1 (T6 m) c
  | ⟨2, _⟩ => fun c => dat2 (T7 m) c
  | ⟨3, _⟩ => fun c => dat3 (T8 m) c
  | ⟨4, _⟩ => fun c => dat4 (T9 m) c
  | ⟨5, _⟩ => fun c => dat5 (T10 m) c
  | ⟨6, _⟩ => fun c => dat6 (T11 m) c

abbrev 𝒱₀ : Variants := Variants.none
abbrev L : GSem nD τ sig → Finset Unit := fun _ => ∅
abbrev lv : GSem nD τ sig → Unit → ℕ := fun _ _ => 0

end Cert.Kernel.Hand

end
-- ==== Proof.K.Reg.lean ====
import proofs.«180960_j9371618640573_1_alg».proof.Proof.K.Family

noncomputable section

namespace Cert.Kernel.Hand

open Cert.Kernel Cert.Kernel.Gen Idealize.ShloMosaic

variable {F : FTy → Type} [FloatOps F] (m : (ℓ : Loc nD τ sig) → Buf (Elt F) ℓ)

def reg0 : Pipeline.RegionSeg (pcfgs (F := F)) adm (pdats m) () defs₀ 𝒱₀ L lv 0 :=
  regOf cfgs defs₀ (pdats m) launch0 3 (U5 m) (U6 m) (body_obligation0 (T5 m)) (hin0 (T5 m)) (hout0 (T5 m))
def reg1 : Pipeline.RegionSeg (pcfgs (F := F)) adm (pdats m) () defs₀ 𝒱₀ L lv 1 :=
  regOf cfgs defs₀ (pdats m) launch1 2 (U6 m) (U7 m) (body_obligation1 (T6 m)) (hin1 (T6 m)) (hout1 (T6 m))
def reg2 : Pipeline.RegionSeg (pcfgs (F := F)) adm (pdats m) () defs₀ 𝒱₀ L lv 2 :=
  regOf cfgs defs₀ (pdats m) launch2 3 (U7 m) (U8 m) (body_obligation2 (T7 m)) (hin2 (T7 m)) (hout2 (T7 m))
def reg3 : Pipeline.RegionSeg (pcfgs (F := F)) adm (pdats m) () defs₀ 𝒱₀ L lv 3 :=
  regOf cfgs defs₀ (pdats m) launch3 2 (U8 m) (U9 m) (body_obligation3 (T8 m)) (hin3 (T8 m)) (hout3 (T8 m))
def reg4 : Pipeline.RegionSeg (pcfgs (F := F)) adm (pdats m) () defs₀ 𝒱₀ L lv 4 :=
  regOf cfgs defs₀ (pdats m) launch4 3 (U9 m) (U10 m) (body_obligation4 (T9 m)) (hin4 (T9 m)) (hout4 (T9 m))
def reg5 : Pipeline.RegionSeg (pcfgs (F := F)) adm (pdats m) () defs₀ 𝒱₀ L lv 5 :=
  regOf cfgs defs₀ (pdats m) launch5 2 (U10 m) (U11 m) (body_obligation5 (T10 m)) (hin5 (T10 m)) (hout5 (T10 m))
def reg6 : Pipeline.RegionSeg (pcfgs (F := F)) adm (pdats m) () defs₀ 𝒱₀ L lv 6 :=
  regOf cfgs defs₀ (pdats m) launch6 3 (U11 m) (U12 m) (body_obligation6 (T11 m)) (hin6 (T11 m)) (hout6 (T11 m))

end Cert.Kernel.Hand

end
-- ==== Proof.K.Frame.lean ====
import proofs.«180960_j9371618640573_1_alg».proof.Proof.K.Reg

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  rw [ownU_emb₁]
  iintro Hu; imodintro
  isplitl [Hu]; · iexact Hu
  iapply (Entails.of_eq (BI.bigSep_emp_const _).symm); iempintro

theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE7 (c : Dev nD) : R (F := F) c ⊢ (iprop(∃ W, owes (c : Thread nD τ) (0 : CellTallies nD τ sig Unit) W) : sProp 𝕄) := by
  iintro ⟨-, HO⟩; iexact HO

set_option backward.isDefEq.respectTransparency.types false in
/-- The seven segments chained by the generated conditional frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := hu₀)
    (E := fun _ c => R c) (hE0 := hE0 ρ) (hE7 := hE7)
    (reg0 m) (fun c => .rfl) (fun c => by rw [V6_eq]; exact .rfl)
    (reg1 m) (fun c => by rw [V6_eq]; exact .rfl) (fun c => by rw [V7_eq]; exact .rfl)
    (reg2 m) (fun c => by rw [V7_eq]; exact .rfl) (fun c => by rw [V8_eq]; exact .rfl)
    (reg3 m) (fun c => by rw [V8_eq]; exact .rfl) (fun c => by rw [V9_eq]; exact .rfl)
    (reg4 m) (fun c => by rw [V9_eq]; exact .rfl) (fun c => by rw [V10_eq]; exact .rfl)
    (reg5 m) (fun c => by rw [V10_eq]; exact .rfl) (fun c => by rw [V11_eq]; exact .rfl)
    (reg6 m) (fun c => by rw [V11_eq]; exact .rfl) (fun c => by rw [V12_eq]; exact .rfl)

end Cert.Kernel.Hand

end
-- ==== Proof.KI.GBody.lean ====
import proofs.«180960_j9371618640573_1_alg».proof.Proof.Gen.KernelIdeal.Launch
import proofs.«180960_j9371618640573_1_alg».proof.Proof.Gen.KernelIdeal.Skeleton
import Idealize.ShloMosaic.Lib.Pipeline.FrameBody
import Idealize.ShloMosaic.Lib.Pipeline.Value
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Point t lies in edge block t / 50, a number below 635, which its 32-bit word gives back unchanged. -/
theorem gIndex_3 (t : Fin cfg0.N) : win0_3.index t 0 = t.val / 50 ∧ win0_3.index t 1 = 0 := by
  have ht : t.val < 31750 := t.isLt
  refine ⟨?_, rfl⟩
  show (BitVec.ofNat 32 (t.val / grid0.stride 0 % 635)).toNat = _
  rw [show grid0.stride 0 = 50 by decide, BitVec.toNat_ofNat]
  omega

/-- The quotient by 50 changes between t and t + 1 exactly when t ≡ 49 (mod 50), and the last point, 31749, is such a t. -/
theorem gFlush_3 (t : Fin cfg0.N) : (cfg0.win 3).flush t = true ↔ t.val % 50 = 49 := by
  have hN : grid0.N = 31750 := by decide
  have ht : t.val < grid0.N := t.isLt
  have hne : ∀ h : t.val + 1 < grid0.N, win0_3.index ⟨t.val + 1, h⟩ ≠ win0_3.index t ↔ (t.val + 1) / 50 ≠ t.val / 50 := fun h =>
    not_congr ⟨fun he => (gIndex_3 ⟨_, h⟩).1.symm.trans ((congrFun he 0).trans (gIndex_3 t).1),
      fun he => funext fun a => by
        fin_cases a
        · exact (gIndex_3 ⟨_, h⟩).1.trans (he.trans (gIndex_3 t).1.symm)
        · exact (gIndex_3 ⟨_, h⟩).2.trans (gIndex_3 t).2.symm⟩
  refine (win0_3.flush_out rfl t).trans ⟨?_, fun h49 => ?_⟩
  · rintro (h | ⟨h, hd⟩)
    · omega
    · have := (hne h).mp hd; omega
  · by_cases hl : t.val + 1 = grid0.N
    · exact .inl hl
    · exact .inr ⟨by omega, (hne (by omega)).mpr (by omega)⟩

/-- The two tests the body makes on the node-block coordinate: against 0 and against 49. -/
abbrev gReset (i : grid0.Coords) : Prop :=
  (Scalar.cmpi .ne (Scalar.extui (Scalar.cmpi .eq (BitVec.ofNat 32 (i 1).val) 0#32)) 0#32) = 1#1

abbrev gCopy (i : grid0.Coords) : Prop := k0_cond2 i = 1#1

/-- Over the 50 possible coordinates the first test holds at 0 only and the second at 49 only. -/
theorem gCmp : ∀ k : Fin 50,
    ((Scalar.cmpi .ne (Scalar.extui (Scalar.cmpi .eq (BitVec.ofNat 32 k.val) 0#32) : BitVec 32) 0#32) = 1#1 ↔ k.val = 0) ∧
    ((Scalar.cmpi .ne (Scalar.extui (Scalar.cmpi .eq (BitVec.ofNat 32 k.val) 49#32) : BitVec 32) 0#32) = 1#1 ↔ k.val = 49) := by
  decide +kernel

/-- The last coordinate of point t is t mod 50, so the tests read t ≡ 0 and t ≡ 49 (mod 50). -/
theorem gCond_iff (t : Fin cfg0.N) :
    (gReset (grid0.coords t) ↔ t.val % 50 = 0) ∧ (gCopy (grid0.coords t) ↔ t.val % 50 = 49) := by
  have e : ((grid0.coords t) 1).val = t.val % 50 := by
    show t.val / grid0.stride 1 % grid0.bound 1 = t.val % 50
    rw [show grid0.stride 1 = 1 from by decide, Nat.div_one]
    rfl
  rw [← e]; exact gCmp ((grid0.coords t) 1)

theorem hz_2 : (![0, 0] : Fin 2 → ℕ) = fun _ => 0 := funext fun a => by fin_cases a <;> rfl
theorem hz_1 : (![0] : Fin 1 → ℕ) = fun _ => 0 := funext fun a => by fin_cases a <;> rfl

/-- The newest piece covers every index, so reading back gives its payload whatever lies under it. -/
theorem read_last {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- One run of `ker`: the accumulator becomes `pay2` of itself (of `pay1` under the first test) and is copied out under the second. -/
def GRunSpec (ker : type_of% (cc0__gather_kernel (F := F))) (pay1 : type_of% (k0_pay1 (F := F))) (pay2 : type_of% (k0_pay2 (F := F))) : Prop :=
  ∀ (c : Dev nD) (i : grid0.Coords)
    (arg2 : Memref sig .tc .vmem S2000x64 .f32) (harg2 : arg2.IsWhole) (arg3 : Memref sig .tc .vmem S2048 .i32) (harg3 : arg3.IsWhole)
    (arg4 : Memref sig .tc .vmem S2048 .f32) (harg4 : arg4.IsWhole) (arg5 : Memref sig .tc .vmem S2048x64 .f32) (harg5 : arg5.IsWhole)
    (arg6 : Memref sig .tc .vmem S2048x64 .f32) (harg6 : arg6.IsWhole)
    (x0 : Vec F S2000x64 .f32) (x1 : Vec F S2048 .i32) (x2 : Vec F S2048 .f32) (x3 xs : Vec F S2048x64 .f32)
    (E : Set ℕ) (K : PUnit → sProp 𝕄),
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if gCopy i then pay2 i x1 x2 x0 (if gReset i then pay1 else xs) else x3)
            ∗ owns (c : Thread nD τ) arg6 fullShare (pay2 i x1 x2 x0 (if gReset i then pay1 else xs))) -∗ K ⟨⟩))
      ⊢ wp frame (wpE (defs₀ (F := F)) Variants.none c none) E (ker i arg2 harg2 arg3 harg3 arg4 harg4 arg5 harg5 arg6 harg6) K

theorem gRun0 : GRunSpec (F := F) cc0__gather_kernel k0_pay1 k0_pay2 := by
  intro c i arg2 harg2 arg3 harg3 arg4 harg4 arg5 harg5 arg6 harg6 x0 x1 x2 x3 xs E K
  by_cases hc0 : gReset i <;> by_cases hc1 : gCopy i <;>
    (first | rw [if_pos hc0] | rw [if_neg hc0]) <;> (first | rw [if_pos hc1] | rw [if_neg hc1])
  · exact absurd ((gCmp (i 1)).1.mp hc0 ▸ (gCmp (i 1)).2.mp hc1) (by decide)
  all_goals
    simp only [cc0__gather_kernel_eq_skeleton]; unfold cc0__gather_kernel_skel owns
    iintro ⟨⟨%f0, %hf0, H0⟩, ⟨%f1, %hf1, H1⟩, ⟨%f2, %hf2, H2⟩, ⟨%f3, %hf3, H3⟩, ⟨%f6, %hf6, H6⟩, Hk⟩
    subst hf0 hf1 hf2 hf3 hf6
    sl_exec (disch := first | exact hc0 | exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr
      swap; · iexact H3
      ipureintro
      first
        | (try sl_unfold_words) <;> rw [read_last _ _ hz_2] <;> (try rw [View.readCov_unit_zero (S := S2048x64) _ hz_2]) <;>
            simp only [View.readAt_eq_ld, View.ld_unit_zero (S := S2048) hz_1, View.ld_unit_zero (S := S2000x64) hz_2,
              View.ld_unit_zero (S := S2048x64) hz_2]
        | rfl
    iexists _; isplitr
    swap; · iexact H6
    ipureintro
    (try sl_unfold_words) <;> rw [read_last _ _ hz_2] <;> (try rw [View.readCov_unit_zero (S := S2048x64) _ hz_2]) <;>
      simp only [View.readAt_eq_ld, View.ld_unit_zero (S := S2048) hz_1, View.ld_unit_zero (S := S2000x64) hz_2,
        View.ld_unit_zero (S := S2048x64) hz_2]

/-- Calls 2 and 4 differ from call 0 by one reshape of the feature block to its own shape, which is the identity. -/
theorem gPay2 : k2_pay2 (F := F) = k0_pay2 := by
  funext i v3 v16 v22 v25
  simp only [k2_pay2, k0_pay2, shapeCast_self]

theorem gKer2 : cc2__gather_kernel (F := F) = cc0__gather_kernel := by
  rw [cc2__gather_kernel_eq_skeleton, cc0__gather_kernel_eq_skeleton]
  unfold cc2__gather_kernel_skel cc0__gather_kernel_skel
  rw [gPay2]; rfl

theorem gRun2 : GRunSpec (F := F) cc2__gather_kernel k2_pay1 k2_pay2 := by
  rw [gKer2, gPay2]; exact gRun0

theorem gRun4 : GRunSpec (F := F) cc4__gather_kernel k4_pay1 k4_pay2 := gRun2

end Cert.KernelIdeal.Hand

end
-- ==== Proof.KI.Sched0.lean ====
import proofs.«180960_j9371618640573_1_alg».proof.Proof.KI.GBody

namespace Cert.KernelIdeal.GenP

open Cert.KernelIdeal.Gen Cert.KernelIdeal.Hand

theorem flush0_3 : ∀ t : Fin cfg0.N, (cfg0.win 3).flush t = true ↔ t.val % 50 = 49 := gFlush_3

end Cert.KernelIdeal.GenP
-- ==== Proof.KI.G0.lean ====
import proofs.«180960_j9371618640573_1_alg».proof.Proof.KI.Sched0
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem hcond0_0 (t : Fin cfg0.N) : gReset (grid0.coords t) ↔ t.val % 50 = 0 := (gCond_iff t).1

theorem hcond0_1 (t : Fin cfg0.N) : gCopy (grid0.coords t) ↔ t.val % 50 = 49 := (gCond_iff t).2

variable (V : (c : Dev nD) → (b : Ref sig .tc) → Buf (Elt F) ((c : Thread nD τ).loc b))

/-- The part of array `w` that point `t` sees, at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum of the block products over a run of 50 points, restarted from zero at every multiple of 50. -/
def acc0 (c : Dev nD) : (n : ℕ) → n < cfg0.N → Vec F S2048x64 .f32
  | 0, h => k0_pay2 (grid0.coords ⟨0, h⟩) (iblk0 V c 1 ⟨0, h⟩) (iblk0 V c 2 ⟨0, h⟩) (iblk0 V c 0 ⟨0, h⟩) k0_pay1
  | n + 1, h => k0_pay2 (grid0.coords ⟨n + 1, h⟩) (iblk0 V c 1 ⟨n + 1, h⟩) (iblk0 V c 2 ⟨n + 1, h⟩) (iblk0 V c 0 ⟨n + 1, h⟩)
      (if (n + 1) % 50 = 0 then k0_pay1 else acc0 c n (Nat.lt_of_succ_lt h))

abbrev scM0 : Memref sig .tc .vmem S2048x64 .f32 := Memref.whole cc0_scratch0

/-- The invariant at `t`: the accumulator holds `acc0 (t - 1)`, and anything at `t = 0`. -/
def PhiS0 (c : Dev nD) (t : Fin (cfg0.N + 1)) : sProp 𝕄 :=
  iprop(∃ d, ⌜∀ h : t.val ≠ 0, d = acc0 V c (t.val - 1) (by omega)⌝ ∗ owns (c : Thread nD τ) scM0 fullShare d
    ∗ Pipeline.scopedRestBut spec0 c [cc0_scratch0])

/-- Proof data of the call: the inputs are left as found, the output carries the running sum. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => acc0 V c t.val t.isLt
  Φ := PhiS0 V c
  q _ := fullShare
  owed _ := 0

theorem after0_3 (c : Dev nD) (t : Fin cfg0.N) : (dat0 V c).after 3 t = acc0 V c t.val t.isLt := rfl

theorem acc0_first (c : Dev nD) (t : Fin cfg0.N) (h : t.val % 50 = 0) :
    acc0 V c t.val t.isLt = k0_pay2 (grid0.coords t) (iblk0 V c 1 t) (iblk0 V c 2 t) (iblk0 V c 0 t) k0_pay1 := by
  obtain ⟨_ | n, hn⟩ := t
  · rfl
  · exact (congrArg _ (if_pos h) :)

theorem acc0_next (c : Dev nD) (t : Fin cfg0.N) (h : ¬t.val % 50 = 0) :
    acc0 V c t.val t.isLt = k0_pay2 (grid0.coords t) (iblk0 V c 1 t) (iblk0 V c 2 t) (iblk0 V c 0 t)
      (acc0 V c (t.val - 1) (Nat.lt_of_le_of_lt (Nat.sub_le _ _) t.isLt)) := by
  obtain ⟨_ | n, hn⟩ := t
  · exact absurd rfl h
  · exact (congrArg _ (if_neg h) :)

/-- Under the second test the output holds the running sum; otherwise (t ≢ 49) it is as found. -/
theorem leaves0_3 (c : Dev nD) (t : Fin cfg0.N) (d) :
    owns (c : Thread nD τ) (win0_3.stage (cfg0.slots t 3)) fullShare
      (if gCopy (grid0.coords t) then acc0 V c t.val t.isLt else (dat0 V c).before 3 t d) ⊢ (dat0 V c).leavesExact 3 t := by
  by_cases h : gCopy (grid0.coords t)
  · rw [if_pos h]; unfold Dat.leavesExact
    rw [show cfg0.idle 3 (grid0.coords t) = false from by show (!(k0_cond2 _ == 1#1)) = false; rw [(beq_iff_eq (a := k0_cond2 (grid0.coords t))).mpr h]; rfl]
    exact .rfl
  · rw [if_neg h, Dat.leavesExact_idle _ 3 t (by show (!(k0_cond2 _ == 1#1)) = true; rw [beq_false_of_ne (a := k0_cond2 (grid0.coords t)) h]; rfl)
      (Bool.eq_false_iff.mpr fun hf => h ((hcond0_1 t).mpr ((flush0_3 t).mp hf)))]
    iintro H; iexists _; iexact H

/-- One run of the body takes the invariant at `t` to the invariant at `t + 1`: `acc0`'s recursion is the run's own step. -/
theorem body_obligation0 (c : Dev nD) : BodyObligation (dat0 (F := F) V c) (defs₀ (F := F)) Variants.none () Set.univ := fun t => by
  rw [bigSep_W0, bigSep_W0, show (dat0 V c).Φ = PhiS0 V c from rfl]
  dsimp only
  unfold PhiS0
  have hacc : ∀ ds, (∀ hz : t.val ≠ 0, ds = acc0 V c (t.val - 1) (by omega)) →
      k0_pay2 (grid0.coords t) (iblk0 V c 1 t) (iblk0 V c 2 t) (iblk0 V c 0 t) (if gReset (grid0.coords t) then k0_pay1 else ds)
        = acc0 V c t.val t.isLt := fun ds hds => by
    by_cases h0 : t.val % 50 = 0
    · rw [if_pos ((hcond0_0 t).mpr h0), acc0_first V c t h0]
    · rw [if_neg (mt (hcond0_0 t).mp h0), acc0_next V c t h0, hds fun e => h0 (by rw [e])]
  iintro ⟨⟨%ds, %hds, HS, HR⟩, Ho, ⟨%d0, H0⟩, ⟨%d1, H1⟩, ⟨%d2, H2⟩, ⟨%d3, H3⟩⟩
  rw [(dat0 V c).before_in_eq_fetched 0 rfl (fun _ => rfl) (fun _ _ _ => rfl) (fun _ => rfl) t d0,
    (dat0 V c).before_in_eq_fetched 1 rfl (fun _ => rfl) (fun _ _ _ => rfl) (fun _ => rfl) t d1,
    (dat0 V c).before_in_eq_fetched 2 rfl (fun _ => rfl) (fun _ _ _ => rfl) (fun _ => rfl) t d2]
  iapply (gRun0 c (grid0.coords t) _ (stage_whole0 0 _) _ (stage_whole0 1 _) _ (stage_whole0 2 _) _ (stage_whole0 3 _) _ (Memref.isWhole_whole _)
    (iblk0 V c 0 t) (iblk0 V c 1 t) (iblk0 V c 2 t) ((dat0 V c).before 3 t d3) ds Set.univ _)
  isplitl [H0]; · iexact H0
  isplitl [H1]; · iexact H1
  isplitl [H2]; · iexact H2
  isplitl [H3]; · iexact H3
  isplitl [HS]; · iexact HS
  rw [hacc ds hds]
  iintro ⟨H0, H1, H2, H3, HS⟩
  isplitl [HS HR]
  · iexists _; iframe HS HR; ipureintro; exact fun _ => rfl
  isplitl [Ho]; · iexact Ho
  isplitl [H0]; · iexact H0
  isplitl [H1]; · iexact H1
  isplitl [H2]; · iexact H2
  iapply (leaves0_3 V c t d3)
  iexact H3

theorem hin0 (c : Dev nD) : (Pipeline.scopedRest spec0 c : sProp 𝕄) ⊢ (dat0 V c).Φ 0 := by
  rw [scopedRest0_split]; show _ ⊢ PhiS0 V c 0; unfold PhiS0; simp only [scM0, owns_whole]
  iintro ⟨⟨%d, H⟩, R⟩; iexists d; iframe H R; ipureintro; exact fun h => absurd rfl h

theorem hout0 (c : Dev nD) : (dat0 V c).Φ (Fin.last cfg0.N) ⊢ (Pipeline.scopedRest spec0 c : sProp 𝕄) := by
  rw [scopedRest0_split]; show PhiS0 V c _ ⊢ _; unfold PhiS0; simp only [scM0, owns_whole]
  iintro ⟨%d, -, H, R⟩; iframe R; iexists d; iexact H

end Cert.KernelIdeal.Hand

end
-- ==== Proof.KI.SBody.lean ====
import proofs.«180960_j9371618640573_1_alg».proof.Proof.Gen.KernelIdeal.Launch
import proofs.«180960_j9371618640573_1_alg».proof.Proof.Gen.KernelIdeal.Skeleton
import proofs.«180960_j9371618640573_1_alg».proof.Proof.CommonS
import Idealize.ShloMosaic.Lib.Tactic

noncomputable section

namespace Cert.KernelIdeal.Hand

open Cert.Common Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Point t of the 50 x 635 grid is edge block t % 635 of node block t / 635. -/
theorem scoord (t : Fin grid1.N) : (grid1.coords t 0).val = t.val / 635 % 50 ∧ (grid1.coords t 1).val = t.val % 635 := by
  constructor
  · show t.val / grid1.stride 0 % grid1.bound 0 = _
    rw [show grid1.stride 0 = 635 from by decide, show grid1.bound 0 = 50 from rfl]
  · show t.val / grid1.stride 1 % grid1.bound 1 = _
    rw [show grid1.stride 1 = 1 from by decide, show grid1.bound 1 = 635 from rfl, Nat.div_one]

/-- The result's block index is `t / 635`, which differs between `t` and `t + 1` exactly when `t % 635 = 634`. -/
theorem sflush (t : Fin cfg1.N) : (cfg1.win 2).flush t = true ↔ t.val % 635 = 634 := by
  have hN : grid1.N = 31750 := N_1
  have ht : t.val < 31750 := lt_of_lt_of_eq t.isLt hN
  have hix : ∀ u : Fin cfg1.N, (cfg1.win 2).index u ⟨0, by decide⟩ = u.val / 635 % 50 := fun u => by
    show (BitVec.ofNat 32 (grid1.coords u 0).val).toNat = _
    rw [(scoord u).1, BitVec.toNat_ofNat]; omega
  rw [(cfg1.win 2).flush_out rfl t]
  constructor
  · rintro (h1 | ⟨h1, hne⟩)
    · have := h1.trans hN; omega
    · have h1' : t.val + 1 < 31750 := lt_of_lt_of_eq h1 hN
      refine Classical.byContradiction fun h => hne ((cfg1.win 2).hreads _ _ fun a ha => ?_)
      match a, ha with
      | ⟨0, _⟩, _ =>
        exact Fin.ext ((scoord ⟨t.val + 1, h1⟩).1.trans ((by omega : (t.val + 1) / 635 % 50 = t.val / 635 % 50).trans (scoord t).1.symm))
      | ⟨1, _⟩, ha => exact absurd ha Bool.false_ne_true
  · intro h
    by_cases hl : t.val + 1 = 31750
    · exact .inl (hl.trans hN.symm)
    · have h1 : t.val + 1 < grid1.N := lt_of_lt_of_eq (by omega) hN.symm
      refine .inr ⟨h1, fun he => ?_⟩
      have h0 := congrFun he ⟨0, by decide⟩
      rw [hix, hix] at h0
      change (t.val + 1) / 635 % 50 = t.val / 635 % 50 at h0
      omega

/-- The body's reset condition at coordinates i, -/
abbrev sfirst (i : grid1.Coords) : Prop := (Scalar.cmpi .ne (Scalar.extui (Scalar.cmpi .eq (BitVec.ofNat 32 (i 1).val) 0#32)) 0#32) = 1#1
/-- and its copy-out condition. -/
abbrev slast (i : grid1.Coords) : Prop := k1_cond2 i = 1#1

/-- They hold exactly at the first and at the last edge block of a node block: decided over the 635 edge-block coordinates. -/
theorem scond (t : Fin grid1.N) : (sfirst (grid1.coords t) ↔ t.val % 635 = 0) ∧ (slast (grid1.coords t) ↔ t.val % 635 = 634) := by
  rw [← (scoord t).2]
  exact (by decide +kernel : ∀ j : Fin 635,
    ((Scalar.cmpi .ne (Scalar.extui (Scalar.cmpi .eq (BitVec.ofNat 32 j.val) 0#32)) 0#32) = 1#1 ↔ j.val = 0)
    ∧ ((Scalar.cmpi .ne (Scalar.extui (Scalar.cmpi .eq (BitVec.ofNat 32 j.val) 634#32)) 0#32) = 1#1 ↔ j.val = 634)) (grid1.coords t 1)

/-- The body run: the accumulator (zeroed first when `sfirst`) ends at the sum `P`, which the result receives when `slast`; all else is left as found. -/
theorem srun (c : Dev nD) (i : grid1.Coords) (arg2 : Memref sig .tc .vmem S2048x64 .f32) (harg2 : arg2.IsWhole) (arg3 : Memref sig .tc .vmem S2048 .i32) (harg3 : arg3.IsWhole) (arg4 : Memref sig .tc .vmem S2000x64 .f32) (harg4 : arg4.IsWhole) (arg5 : Memref sig .tc .vmem S2000x64 .f32) (harg5 : arg5.IsWhole)
    (x0 : Vec F S2048x64 .f32) (x1 : Vec F S2048 .i32) (x2 xs P : Vec F S2000x64 .f32)
    (hP : k1_pay2 i x1 x0 (if sfirst i then k1_pay1 else xs) = P) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (if slast i then P else x2) ∗ owns (c : Thread nD τ) arg5 fullShare P) -∗ K ⟨⟩))
      ⊢ wp frame (wpE (defs₀ (F := F)) Variants.none c none) E (cc1__scatter_kernel i arg2 harg2 arg3 harg3 arg4 harg4 arg5 harg5) K := by
  subst hP; simp only [cc1__scatter_kernel_eq_skeleton]; unfold cc1__scatter_kernel_skel owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  by_cases hc0 : sfirst i <;> by_cases hc1 : slast i
  all_goals
    first | rw [if_pos hc0] | rw [if_neg hc0]
    first | rw [if_pos hc1] | rw [if_neg hc1]
    sl_exec (disch := first | exact hc0 | exact hc1)
    sl_step
    iapply Hk
    isplitl [H0]; swap; isplitl [H1]; swap; isplitl [H2]
    all_goals
      iexists _; isplitr; swap
      · first | iexact H0 | iexact H1 | iexact H2 | iexact HS
      ipureintro
      (try sl_unfold_words)
      try rw [read_last_whole _ _ zeros_two]
      (try sl_unfold_words)
      simp only [View.readCov_cons_toLoadRect, View.readAt_eq_ld, harg2.read_unread, harg3.read_unread, harg4.read_unread, harg5.read_unread, View.ld_unit_zero (S := S2000x64) zeros_two, View.ld_unit_zero (S := S2048x64) zeros_two, View.ld_unit_zero (S := S2048) zeros_one]

end Cert.KernelIdeal.Hand

end
-- ==== Proof.KI.Sched1.lean ====
import proofs.«180960_j9371618640573_1_alg».proof.Proof.KI.SBody

namespace Cert.KernelIdeal.GenP

open Cert.KernelIdeal.Gen Cert.KernelIdeal.Hand

theorem flush1_2 : ∀ t : Fin cfg1.N, (cfg1.win 2).flush t = true ↔ t.val % 635 = 634 := sflush

end Cert.KernelIdeal.GenP
-- ==== Proof.KI.S1.lean ====
import proofs.«180960_j9371618640573_1_alg».proof.Proof.KI.Sched1
import Idealize.ShloMosaic.Lib.Pipeline.RegionsLoop
import Idealize.ShloMosaic.Lib.Pipeline.FrameSuffix
import Idealize.ShloMosaic.Lib.Ring

noncomputable section

namespace Cert.KernelIdeal.Hand

open Cert.Common Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, as a function of the arrays' contents `V` on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum along the edge blocks of a node block: it restarts from zero whenever `n % 635 = 0`. -/
def acc1 (c : Dev nD) : (n : ℕ) → n < cfg1.N → Vec F S2000x64 .f32
  | 0, h => k1_pay2 (grid1.coords ⟨0, h⟩) (iblk1 V c 1 ⟨0, h⟩) (iblk1 V c 0 ⟨0, h⟩) k1_pay1
  | n + 1, h => k1_pay2 (grid1.coords ⟨n + 1, h⟩) (iblk1 V c 1 ⟨n + 1, h⟩) (iblk1 V c 0 ⟨n + 1, h⟩)
      (if (n + 1) % 635 = 0 then k1_pay1 else acc1 c n (Nat.lt_of_succ_lt h))

abbrev scM1 : Memref sig .tc .vmem S2000x64 .f32 := Memref.whole cc1_scratch0

/-- The invariant before point `t`: the accumulator holds `acc1 (t - 1)`, or anything when `t = 0`. -/
def PhiS1 (c : Dev nD) (t : Fin (cfg1.N + 1)) : sProp 𝕄 :=
  iprop(∃ d, ⌜∀ h : t.val ≠ 0, d = acc1 V c (t.val - 1) (by omega)⌝ ∗ owns (c : Thread nD τ) scM1 fullShare d
    ∗ Pipeline.scopedRestBut spec1 c [cc1_scratch0])

/-- Proof data of the call: the inputs keep their blocks, the result block is the running sum. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ := PhiS1 V c
  q _ := fullShare
  owed _ := 0

theorem after1_2 (c : Dev nD) (t : Fin cfg1.N) : (dat1 V c).after 2 t = acc1 V c t.val t.isLt := by dsimp only [dat1]

/-- What the body finds in an input window is what it leaves there, the window's block. -/
theorem before1_in (c : Dev nD) (t : Fin cfg1.N) :
    (∀ d, (dat1 V c).before 0 t d = (dat1 V c).after 0 t) ∧ (∀ d, (dat1 V c).before 1 t d = (dat1 V c).after 1 t) := by
  constructor <;> intro d <;>
  exact ((dat1 V c).before_in_eq_fetched _ rfl (fun _ => rfl) (fun _ _ _ => rfl) (fun t => by dsimp only [dat1]; rfl) t d).trans
    (by dsimp only [dat1]; rfl)

/-- One step of the running sum from `d`, which is `acc1 (t - 1)` unless point `t` starts a node block. -/
theorem acc1_step (c : Dev nD) (t : Fin cfg1.N) (d : Vec F S2000x64 .f32) (hd : ∀ h : t.val ≠ 0, d = acc1 V c (t.val - 1) (by omega)) :
    k1_pay2 (grid1.coords t) ((dat1 V c).after 1 t) ((dat1 V c).after 0 t) (if sfirst (grid1.coords t) then k1_pay1 else d)
      = (dat1 V c).after 2 t := by
  obtain ⟨n, hn⟩ := t
  cases n with
  | zero => rw [if_pos ((scond _).1.mpr rfl)]; rfl
  | succ n => obtain rfl := hd (Nat.succ_ne_zero n); exact congrArg _ (if_congr (scond ⟨n + 1, hn⟩).1 rfl rfl)

/-- By `srun`: the accumulator advances by `acc1_step`, and the result block receives it exactly when `slast`. -/
theorem body_obligation1 (c : Dev nD) : BodyObligation (dat1 (F := F) V c) (defs₀ (F := F)) Variants.none () Set.univ := fun t => by
  rw [bigSep_W1, bigSep_W1, show (dat1 V c).Φ = PhiS1 V c from rfl,
    show (dat1 V c).owesAt () t.succ = (dat1 V c).owesAt () t.castSucc from rfl]
  dsimp only
  unfold PhiS1
  simp only [(before1_in V c t).1, (before1_in V c t).2]
  iintro ⟨⟨%d, %hd, HS, HR⟩, Ho, ⟨%d0, H0⟩, ⟨%d1, H1⟩, ⟨%d2, H2⟩⟩
  iapply (srun c (grid1.coords t) _ (stage_whole1 0 _) _ (stage_whole1 1 _) _ (stage_whole1 2 _) _ (Memref.isWhole_whole _)
    _ _ _ d _ (acc1_step V c t d hd) Set.univ _)
  iframe H0 H1 H2 HS
  iintro ⟨H0, H1, H2, HS⟩
  iframe H0 H1 Ho
  isplitl [HS HR]
  · iexists _; iframe HS HR; ipureintro; exact fun _ => rfl
  by_cases h : slast (grid1.coords t)
  · rw [if_pos h, show idle1 2 (grid1.coords t) = false from by
      show (!(k1_cond2 (grid1.coords t) == 1#1)) = false; rw [Bool.not_eq_false', beq_iff_eq]; exact h]
    iexact H2
  · rw [if_neg h, show idle1 2 (grid1.coords t) = true from by
        show (!(k1_cond2 (grid1.coords t) == 1#1)) = true; rw [Bool.not_eq_true', beq_eq_false_iff_ne]; exact h,
      show (win1 2).flush t = false from Bool.eq_false_iff.mpr fun hf => h ((scond t).2.mpr ((flush1_2 t).mp hf))]
    iexists d2; iexact H2

/-- At `t = 0` the invariant asks nothing of the accumulator's contents. -/
theorem hin1 (c : Dev nD) : (Pipeline.scopedRest spec1 c : sProp 𝕄) ⊢ (dat1 V c).Φ 0 := by
  rw [scopedRest1_split]; show _ ⊢ PhiS1 V c 0; unfold PhiS1; simp only [scM1, owns_whole]
  iintro ⟨⟨%d, H⟩, R⟩; iexists d; iframe H R; ipureintro; exact fun h => absurd rfl h

/-- The invariant at any `t` gives the accumulator back at some contents. -/
theorem hout1 (c : Dev nD) : (dat1 V c).Φ (Fin.last cfg1.N) ⊢ (Pipeline.scopedRest spec1 c : sProp 𝕄) := by
  rw [scopedRest1_split]; show PhiS1 V c _ ⊢ _; unfold PhiS1; simp only [scM1, owns_whole]
  iintro ⟨%d, -, H, R⟩; iframe R; iexists d; iexact H

end Cert.KernelIdeal.Hand

end
-- ==== Proof.KI.Sched2.lean ====
import proofs.«180960_j9371618640573_1_alg».proof.Proof.KI.GBody

namespace Cert.KernelIdeal.GenP

open Cert.KernelIdeal.Gen Cert.KernelIdeal.Hand

theorem flush2_3 : ∀ t : Fin cfg2.N, (cfg2.win 3).flush t = true ↔ t.val % 50 = 49 := gFlush_3

end Cert.KernelIdeal.GenP
-- ==== Proof.KI.G2.lean ====
import proofs.«180960_j9371618640573_1_alg».proof.Proof.KI.Sched2
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem hcond2_0 (t : Fin cfg2.N) : gReset (grid2.coords t) ↔ t.val % 50 = 0 := (gCond_iff t).1

theorem hcond2_1 (t : Fin cfg2.N) : gCopy (grid2.coords t) ↔ t.val % 50 = 49 := (gCond_iff t).2

variable (V : (c : Dev nD) → (b : Ref sig .tc) → Buf (Elt F) ((c : Thread nD τ).loc b))

/-- The part of array `w` that point `t` sees, at the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running sum of the block products over a run of 50 points, restarted from zero at every multiple of 50. -/
def acc2 (c : Dev nD) : (n : ℕ) → n < cfg2.N → Vec F S2048x64 .f32
  | 0, h => k2_pay2 (grid2.coords ⟨0, h⟩) (iblk2 V c 1 ⟨0, h⟩) (iblk2 V c 2 ⟨0, h⟩) (iblk2 V c 0 ⟨0, h⟩) k2_pay1
  | n + 1, h => k2_pay2 (grid2.coords ⟨n + 1, h⟩) (iblk2 V c 1 ⟨n + 1, h⟩) (iblk2 V c 2 ⟨n + 1, h⟩) (iblk2 V c 0 ⟨n + 1, h⟩)
      (if (n + 1) % 50 = 0 then k2_pay1 else acc2 c n (Nat.lt_of_succ_lt h))

abbrev scM2 : Memref sig .tc .vmem S2048x64 .f32 := Memref.whole cc2_scratch0

/-- The invariant at `t`: the accumulator holds `acc2 (t - 1)`, and anything at `t = 0`. -/
def PhiS2 (c : Dev nD) (t : Fin (cfg2.N + 1)) : sProp 𝕄 :=
  iprop(∃ d, ⌜∀ h : t.val ≠ 0, d = acc2 V c (t.val - 1) (by omega)⌝ ∗ owns (c : Thread nD τ) scM2 fullShare d
    ∗ Pipeline.scopedRestBut spec2 c [cc2_scratch0])

/-- Proof data of the call: the inputs are left as found, the output carries the running sum. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => acc2 V c t.val t.isLt
  Φ := PhiS2 V c
  q _ := fullShare
  owed _ := 0

theorem after2_3 (c : Dev nD) (t : Fin cfg2.N) : (dat2 V c).after 3 t = acc2 V c t.val t.isLt := rfl

theorem acc2_first (c : Dev nD) (t : Fin cfg2.N) (h : t.val % 50 = 0) :
    acc2 V c t.val t.isLt = k2_pay2 (grid2.coords t) (iblk2 V c 1 t) (iblk2 V c 2 t) (iblk2 V c 0 t) k2_pay1 := by
  obtain ⟨_ | n, hn⟩ := t
  · rfl
  · exact (congrArg _ (if_pos h) :)

theorem acc2_next (c : Dev nD) (t : Fin cfg2.N) (h : ¬t.val % 50 = 0) :
    acc2 V c t.val t.isLt = k2_pay2 (grid2.coords t) (iblk2 V c 1 t) (iblk2 V c 2 t) (iblk2 V c 0 t)
      (acc2 V c (t.val - 1) (Nat.lt_of_le_of_lt (Nat.sub_le _ _) t.isLt)) := by
  obtain ⟨_ | n, hn⟩ := t
  · exact absurd rfl h
  · exact (congrArg _ (if_neg h) :)

/-- Under the second test the output holds the running sum; otherwise (t ≢ 49) it is as found. -/
theorem leaves2_3 (c : Dev nD) (t : Fin cfg2.N) (d) :
    owns (c : Thread nD τ) (win2_3.stage (cfg2.slots t 3)) fullShare
      (if gCopy (grid2.coords t) then acc2 V c t.val t.isLt else (dat2 V c).before 3 t d) ⊢ (dat2 V c).leavesExact 3 t := by
  by_cases h : gCopy (grid2.coords t)
  · rw [if_pos h]; unfold Dat.leavesExact
    rw [show cfg2.idle 3 (grid2.coords t) = false from by show (!(k2_cond2 _ == 1#1)) = false; rw [(beq_iff_eq (a := k2_cond2 (grid2.coords t))).mpr h]; rfl]
    exact .rfl
  · rw [if_neg h, Dat.leavesExact_idle _ 3 t (by show (!(k2_cond2 _ == 1#1)) = true; rw [beq_false_of_ne (a := k2_cond2 (grid2.coords t)) h]; rfl)
      (Bool.eq_false_iff.mpr fun hf => h ((hcond2_1 t).mpr ((flush2_3 t).mp hf)))]
    iintro H; iexists _; iexact H

/-- One run of the body takes the invariant at `t` to the invariant at `t + 1`: `acc2`'s recursion is the run's own step. -/
theorem body_obligation2 (c : Dev nD) : BodyObligation (dat2 (F := F) V c) (defs₀ (F := F)) Variants.none () Set.univ := fun t => by
  rw [bigSep_W2, bigSep_W2, show (dat2 V c).Φ = PhiS2 V c from rfl]
  dsimp only
  unfold PhiS2
  have hacc : ∀ ds, (∀ hz : t.val ≠ 0, ds = acc2 V c (t.val - 1) (by omega)) →
      k2_pay2 (grid2.coords t) (iblk2 V c 1 t) (iblk2 V c 2 t) (iblk2 V c 0 t) (if gReset (grid2.coords t) then k2_pay1 else ds)
        = acc2 V c t.val t.isLt := fun ds hds => by
    by_cases h0 : t.val % 50 = 0
    · rw [if_pos ((hcond2_0 t).mpr h0), acc2_first V c t h0]
    · rw [if_neg (mt (hcond2_0 t).mp h0), acc2_next V c t h0, hds fun e => h0 (by rw [e])]
  iintro ⟨⟨%ds, %hds, HS, HR⟩, Ho, ⟨%d0, H0⟩, ⟨%d1, H1⟩, ⟨%d2, H2⟩, ⟨%d3, H3⟩⟩
  rw [(dat2 V c).before_in_eq_fetched 0 rfl (fun _ => rfl) (fun _ _ _ => rfl) (fun _ => rfl) t d0,
    (dat2 V c).before_in_eq_fetched 1 rfl (fun _ => rfl) (fun _ _ _ => rfl) (fun _ => rfl) t d1,
    (dat2 V c).before_in_eq_fetched 2 rfl (fun _ => rfl) (fun _ _ _ => rfl) (fun _ => rfl) t d2]
  iapply (gRun2 c (grid2.coords t) _ (stage_whole2 0 _) _ (stage_whole2 1 _) _ (stage_whole2 2 _) _ (stage_whole2 3 _) _ (Memref.isWhole_whole _)
    (iblk2 V c 0 t) (iblk2 V c 1 t) (iblk2 V c 2 t) ((dat2 V c).before 3 t d3) ds Set.univ _)
  isplitl [H0]; · iexact H0
  isplitl [H1]; · iexact H1
  isplitl [H2]; · iexact H2
  isplitl [H3]; · iexact H3
  isplitl [HS]; · iexact HS
  rw [hacc ds hds]
  iintro ⟨H0, H1, H2, H3, HS⟩
  isplitl [HS HR]
  · iexists _; iframe HS HR; ipureintro; exact fun _ => rfl
  isplitl [Ho]; · iexact Ho
  isplitl [H0]; · iexact H0
  isplitl [H1]; · iexact H1
  isplitl [H2]; · iexact H2
  iapply (leaves2_3 V c t d3)
  iexact H3

theorem hin2 (c : Dev nD) : (Pipeline.scopedRest spec2 c : sProp 𝕄) ⊢ (dat2 V c).Φ 0 := by
  rw [scopedRest2_split]; show _ ⊢ PhiS2 V c 0; unfold PhiS2; simp only [scM2, owns_whole]
  iintro ⟨⟨%d, H⟩, R⟩; iexists d; iframe H R; ipureintro; exact fun h => absurd rfl h

theorem hout2 (c : Dev nD) : (dat2 V c).Φ (Fin.last cfg2.N) ⊢ (Pipeline.scopedRest spec2 c : sProp 𝕄) := by
  rw [scopedRest2_split]; show PhiS2 V c _ ⊢ _; unfold PhiS2; simp only [scM2, owns_whole]
  iintro ⟨%d, -, H, R⟩; iframe R; iexists d; iexact H

end Cert.KernelIdeal.Hand

end
-- ==== Proof.KI.Sched3.lean ====
import proofs.«180960_j9371618640573_1_alg».proof.Proof.KI.SBody

namespace Cert.KernelIdeal.GenP

open Cert.KernelIdeal.Gen Cert.KernelIdeal.Hand

theorem flush3_2 : ∀ t : Fin cfg3.N, (cfg3.win 2).flush t = true ↔ t.val % 635 = 634 := sflush

end Cert.KernelIdeal.GenP
-- ==== Proof.KI.S3.lean ====
import proofs.«180960_j9371618640573_1_alg».proof.Proof.KI.Sched3
import Idealize.ShloMosaic.Lib.Pipeline.RegionsLoop
import Idealize.ShloMosaic.Lib.Pipeline.FrameSuffix
import Idealize.ShloMosaic.Lib.Ring

noncomputable section

namespace Cert.KernelIdeal.Hand

open Cert.Common Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, as a function of the arrays' contents `V` on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The running sum along the edge blocks of a node block: it restarts from zero whenever `n % 635 = 0`. -/
def acc3 (c : Dev nD) : (n : ℕ) → n < cfg3.N → Vec F S2000x64 .f32
  | 0, h => k3_pay2 (grid3.coords ⟨0, h⟩) (iblk3 V c 1 ⟨0, h⟩) (iblk3 V c 0 ⟨0, h⟩) k3_pay1
  | n + 1, h => k3_pay2 (grid3.coords ⟨n + 1, h⟩) (iblk3 V c 1 ⟨n + 1, h⟩) (iblk3 V c 0 ⟨n + 1, h⟩)
      (if (n + 1) % 635 = 0 then k3_pay1 else acc3 c n (Nat.lt_of_succ_lt h))

abbrev scM3 : Memref sig .tc .vmem S2000x64 .f32 := Memref.whole cc3_scratch0

/-- The invariant before point `t`: the accumulator holds `acc3 (t - 1)`, or anything when `t = 0`. -/
def PhiS3 (c : Dev nD) (t : Fin (cfg3.N + 1)) : sProp 𝕄 :=
  iprop(∃ d, ⌜∀ h : t.val ≠ 0, d = acc3 V c (t.val - 1) (by omega)⌝ ∗ owns (c : Thread nD τ) scM3 fullShare d
    ∗ Pipeline.scopedRestBut spec3 c [cc3_scratch0])

/-- Proof data of the call: the inputs keep their blocks, the result block is the running sum. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ := PhiS3 V c
  q _ := fullShare
  owed _ := 0

theorem after3_2 (c : Dev nD) (t : Fin cfg3.N) : (dat3 V c).after 2 t = acc3 V c t.val t.isLt := by dsimp only [dat3]

/-- What the body finds in an input window is what it leaves there, the window's block. -/
theorem before3_in (c : Dev nD) (t : Fin cfg3.N) :
    (∀ d, (dat3 V c).before 0 t d = (dat3 V c).after 0 t) ∧ (∀ d, (dat3 V c).before 1 t d = (dat3 V c).after 1 t) := by
  constructor <;> intro d <;>
  exact ((dat3 V c).before_in_eq_fetched _ rfl (fun _ => rfl) (fun _ _ _ => rfl) (fun t => by dsimp only [dat3]; rfl) t d).trans
    (by dsimp only [dat3]; rfl)

/-- One step of the running sum from `d`, which is `acc3 (t - 1)` unless point `t` starts a node block. -/
theorem acc3_step (c : Dev nD) (t : Fin cfg3.N) (d : Vec F S2000x64 .f32) (hd : ∀ h : t.val ≠ 0, d = acc3 V c (t.val - 1) (by omega)) :
    k3_pay2 (grid3.coords t) ((dat3 V c).after 1 t) ((dat3 V c).after 0 t) (if sfirst (grid3.coords t) then k3_pay1 else d)
      = (dat3 V c).after 2 t := by
  obtain ⟨n, hn⟩ := t
  cases n with
  | zero => rw [if_pos ((scond _).1.mpr rfl)]; rfl
  | succ n => obtain rfl := hd (Nat.succ_ne_zero n); exact congrArg _ (if_congr (scond ⟨n + 1, hn⟩).1 rfl rfl)

/-- By `srun`: the accumulator advances by `acc3_step`, and the result block receives it exactly when `slast`. -/
theorem body_obligation3 (c : Dev nD) : BodyObligation (dat3 (F := F) V c) (defs₀ (F := F)) Variants.none () Set.univ := fun t => by
  rw [bigSep_W3, bigSep_W3, show (dat3 V c).Φ = PhiS3 V c from rfl,
    show (dat3 V c).owesAt () t.succ = (dat3 V c).owesAt () t.castSucc from rfl]
  dsimp only
  unfold PhiS3
  simp only [(before3_in V c t).1, (before3_in V c t).2]
  iintro ⟨⟨%d, %hd, HS, HR⟩, Ho, ⟨%d0, H0⟩, ⟨%d1, H1⟩, ⟨%d2, H2⟩⟩
  iapply (srun c (grid3.coords t) _ (stage_whole3 0 _) _ (stage_whole3 1 _) _ (stage_whole3 2 _) _ (Memref.isWhole_whole _)
    _ _ _ d _ (acc3_step V c t d hd) Set.univ _)
  iframe H0 H1 H2 HS
  iintro ⟨H0, H1, H2, HS⟩
  iframe H0 H1 Ho
  isplitl [HS HR]
  · iexists _; iframe HS HR; ipureintro; exact fun _ => rfl
  by_cases h : slast (grid3.coords t)
  · rw [if_pos h, show idle3 2 (grid3.coords t) = false from by
      show (!(k3_cond2 (grid3.coords t) == 1#1)) = false; rw [Bool.not_eq_false', beq_iff_eq]; exact h]
    iexact H2
  · rw [if_neg h, show idle3 2 (grid3.coords t) = true from by
        show (!(k3_cond2 (grid3.coords t) == 1#1)) = true; rw [Bool.not_eq_true', beq_eq_false_iff_ne]; exact h,
      show (win3 2).flush t = false from Bool.eq_false_iff.mpr fun hf => h ((scond t).2.mpr ((flush3_2 t).mp hf))]
    iexists d2; iexact H2

/-- At `t = 0` the invariant asks nothing of the accumulator's contents. -/
theorem hin3 (c : Dev nD) : (Pipeline.scopedRest spec3 c : sProp 𝕄) ⊢ (dat3 V c).Φ 0 := by
  rw [scopedRest3_split]; show _ ⊢ PhiS3 V c 0; unfold PhiS3; simp only [scM3, owns_whole]
  iintro ⟨⟨%d, H⟩, R⟩; iexists d; iframe H R; ipureintro; exact fun h => absurd rfl h

/-- The invariant at any `t` gives the accumulator back at some contents. -/
theorem hout3 (c : Dev nD) : (dat3 V c).Φ (Fin.last cfg3.N) ⊢ (Pipeline.scopedRest spec3 c : sProp 𝕄) := by
  rw [scopedRest3_split]; show PhiS3 V c _ ⊢ _; unfold PhiS3; simp only [scM3, owns_whole]
  iintro ⟨%d, -, H, R⟩; iframe R; iexists d; iexact H

end Cert.KernelIdeal.Hand

end
-- ==== Proof.KI.Sched4.lean ====
import proofs.«180960_j9371618640573_1_alg».proof.Proof.KI.GBody

namespace Cert.KernelIdeal.GenP

open Cert.KernelIdeal.Gen Cert.KernelIdeal.Hand

theorem flush4_3 : ∀ t : Fin cfg4.N, (cfg4.win 3).flush t = true ↔ t.val % 50 = 49 := gFlush_3

end Cert.KernelIdeal.GenP
-- ==== Proof.KI.G4.lean ====
import proofs.«180960_j9371618640573_1_alg».proof.Proof.KI.Sched4
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem hcond4_0 (t : Fin cfg4.N) : gReset (grid4.coords t) ↔ t.val % 50 = 0 := (gCond_iff t).1

theorem hcond4_1 (t : Fin cfg4.N) : gCopy (grid4.coords t) ↔ t.val % 50 = 49 := (gCond_iff t).2

variable (V : (c : Dev nD) → (b : Ref sig .tc) → Buf (Elt F) ((c : Thread nD τ).loc b))

/-- The part of array `w` that point `t` sees, at the entry contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The running sum of the block products over a run of 50 points, restarted from zero at every multiple of 50. -/
def acc4 (c : Dev nD) : (n : ℕ) → n < cfg4.N → Vec F S2048x64 .f32
  | 0, h => k4_pay2 (grid4.coords ⟨0, h⟩) (iblk4 V c 1 ⟨0, h⟩) (iblk4 V c 2 ⟨0, h⟩) (iblk4 V c 0 ⟨0, h⟩) k4_pay1
  | n + 1, h => k4_pay2 (grid4.coords ⟨n + 1, h⟩) (iblk4 V c 1 ⟨n + 1, h⟩) (iblk4 V c 2 ⟨n + 1, h⟩) (iblk4 V c 0 ⟨n + 1, h⟩)
      (if (n + 1) % 50 = 0 then k4_pay1 else acc4 c n (Nat.lt_of_succ_lt h))

abbrev scM4 : Memref sig .tc .vmem S2048x64 .f32 := Memref.whole cc4_scratch0

/-- The invariant at `t`: the accumulator holds `acc4 (t - 1)`, and anything at `t = 0`. -/
def PhiS4 (c : Dev nD) (t : Fin (cfg4.N + 1)) : sProp 𝕄 :=
  iprop(∃ d, ⌜∀ h : t.val ≠ 0, d = acc4 V c (t.val - 1) (by omega)⌝ ∗ owns (c : Thread nD τ) scM4 fullShare d
    ∗ Pipeline.scopedRestBut spec4 c [cc4_scratch0])

/-- Proof data of the call: the inputs are left as found, the output carries the running sum. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => acc4 V c t.val t.isLt
  Φ := PhiS4 V c
  q _ := fullShare
  owed _ := 0

theorem after4_3 (c : Dev nD) (t : Fin cfg4.N) : (dat4 V c).after 3 t = acc4 V c t.val t.isLt := rfl

theorem acc4_first (c : Dev nD) (t : Fin cfg4.N) (h : t.val % 50 = 0) :
    acc4 V c t.val t.isLt = k4_pay2 (grid4.coords t) (iblk4 V c 1 t) (iblk4 V c 2 t) (iblk4 V c 0 t) k4_pay1 := by
  obtain ⟨_ | n, hn⟩ := t
  · rfl
  · exact (congrArg _ (if_pos h) :)

theorem acc4_next (c : Dev nD) (t : Fin cfg4.N) (h : ¬t.val % 50 = 0) :
    acc4 V c t.val t.isLt = k4_pay2 (grid4.coords t) (iblk4 V c 1 t) (iblk4 V c 2 t) (iblk4 V c 0 t)
      (acc4 V c (t.val - 1) (Nat.lt_of_le_of_lt (Nat.sub_le _ _) t.isLt)) := by
  obtain ⟨_ | n, hn⟩ := t
  · exact absurd rfl h
  · exact (congrArg _ (if_neg h) :)

/-- Under the second test the output holds the running sum; otherwise (t ≢ 49) it is as found. -/
theorem leaves4_3 (c : Dev nD) (t : Fin cfg4.N) (d) :
    owns (c : Thread nD τ) (win4_3.stage (cfg4.slots t 3)) fullShare
      (if gCopy (grid4.coords t) then acc4 V c t.val t.isLt else (dat4 V c).before 3 t d) ⊢ (dat4 V c).leavesExact 3 t := by
  by_cases h : gCopy (grid4.coords t)
  · rw [if_pos h]; unfold Dat.leavesExact
    rw [show cfg4.idle 3 (grid4.coords t) = false from by show (!(k4_cond2 _ == 1#1)) = false; rw [(beq_iff_eq (a := k4_cond2 (grid4.coords t))).mpr h]; rfl]
    exact .rfl
  · rw [if_neg h, Dat.leavesExact_idle _ 3 t (by show (!(k4_cond2 _ == 1#1)) = true; rw [beq_false_of_ne (a := k4_cond2 (grid4.coords t)) h]; rfl)
      (Bool.eq_false_iff.mpr fun hf => h ((hcond4_1 t).mpr ((flush4_3 t).mp hf)))]
    iintro H; iexists _; iexact H

/-- One run of the body takes the invariant at `t` to the invariant at `t + 1`: `acc4`'s recursion is the run's own step. -/
theorem body_obligation4 (c : Dev nD) : BodyObligation (dat4 (F := F) V c) (defs₀ (F := F)) Variants.none () Set.univ := fun t => by
  rw [bigSep_W4, bigSep_W4, show (dat4 V c).Φ = PhiS4 V c from rfl]
  dsimp only
  unfold PhiS4
  have hacc : ∀ ds, (∀ hz : t.val ≠ 0, ds = acc4 V c (t.val - 1) (by omega)) →
      k4_pay2 (grid4.coords t) (iblk4 V c 1 t) (iblk4 V c 2 t) (iblk4 V c 0 t) (if gReset (grid4.coords t) then k4_pay1 else ds)
        = acc4 V c t.val t.isLt := fun ds hds => by
    by_cases h0 : t.val % 50 = 0
    · rw [if_pos ((hcond4_0 t).mpr h0), acc4_first V c t h0]
    · rw [if_neg (mt (hcond4_0 t).mp h0), acc4_next V c t h0, hds fun e => h0 (by rw [e])]
  iintro ⟨⟨%ds, %hds, HS, HR⟩, Ho, ⟨%d0, H0⟩, ⟨%d1, H1⟩, ⟨%d2, H2⟩, ⟨%d3, H3⟩⟩
  rw [(dat4 V c).before_in_eq_fetched 0 rfl (fun _ => rfl) (fun _ _ _ => rfl) (fun _ => rfl) t d0,
    (dat4 V c).before_in_eq_fetched 1 rfl (fun _ => rfl) (fun _ _ _ => rfl) (fun _ => rfl) t d1,
    (dat4 V c).before_in_eq_fetched 2 rfl (fun _ => rfl) (fun _ _ _ => rfl) (fun _ => rfl) t d2]
  iapply (gRun4 c (grid4.coords t) _ (stage_whole4 0 _) _ (stage_whole4 1 _) _ (stage_whole4 2 _) _ (stage_whole4 3 _) _ (Memref.isWhole_whole _)
    (iblk4 V c 0 t) (iblk4 V c 1 t) (iblk4 V c 2 t) ((dat4 V c).before 3 t d3) ds Set.univ _)
  isplitl [H0]; · iexact H0
  isplitl [H1]; · iexact H1
  isplitl [H2]; · iexact H2
  isplitl [H3]; · iexact H3
  isplitl [HS]; · iexact HS
  rw [hacc ds hds]
  iintro ⟨H0, H1, H2, H3, HS⟩
  isplitl [HS HR]
  · iexists _; iframe HS HR; ipureintro; exact fun _ => rfl
  isplitl [Ho]; · iexact Ho
  isplitl [H0]; · iexact H0
  isplitl [H1]; · iexact H1
  isplitl [H2]; · iexact H2
  iapply (leaves4_3 V c t d3)
  iexact H3

theorem hin4 (c : Dev nD) : (Pipeline.scopedRest spec4 c : sProp 𝕄) ⊢ (dat4 V c).Φ 0 := by
  rw [scopedRest4_split]; show _ ⊢ PhiS4 V c 0; unfold PhiS4; simp only [scM4, owns_whole]
  iintro ⟨⟨%d, H⟩, R⟩; iexists d; iframe H R; ipureintro; exact fun h => absurd rfl h

theorem hout4 (c : Dev nD) : (dat4 V c).Φ (Fin.last cfg4.N) ⊢ (Pipeline.scopedRest spec4 c : sProp 𝕄) := by
  rw [scopedRest4_split]; show PhiS4 V c _ ⊢ _; unfold PhiS4; simp only [scM4, owns_whole]
  iintro ⟨%d, -, H, R⟩; iframe R; iexists d; iexact H

end Cert.KernelIdeal.Hand

end
-- ==== Proof.KI.Sched5.lean ====
import proofs.«180960_j9371618640573_1_alg».proof.Proof.KI.SBody

namespace Cert.KernelIdeal.GenP

open Cert.KernelIdeal.Gen Cert.KernelIdeal.Hand

theorem flush5_2 : ∀ t : Fin cfg5.N, (cfg5.win 2).flush t = true ↔ t.val % 635 = 634 := sflush

end Cert.KernelIdeal.GenP
-- ==== Proof.KI.S5.lean ====
import proofs.«180960_j9371618640573_1_alg».proof.Proof.KI.Sched5
import Idealize.ShloMosaic.Lib.Pipeline.RegionsLoop
import Idealize.ShloMosaic.Lib.Pipeline.FrameSuffix
import Idealize.ShloMosaic.Lib.Ring

noncomputable section

namespace Cert.KernelIdeal.Hand

open Cert.Common Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, as a function of the arrays' contents `V` on entry. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The running sum along the edge blocks of a node block: it restarts from zero whenever `n % 635 = 0`. -/
def acc5 (c : Dev nD) : (n : ℕ) → n < cfg5.N → Vec F S2000x64 .f32
  | 0, h => k5_pay2 (grid5.coords ⟨0, h⟩) (iblk5 V c 1 ⟨0, h⟩) (iblk5 V c 0 ⟨0, h⟩) k5_pay1
  | n + 1, h => k5_pay2 (grid5.coords ⟨n + 1, h⟩) (iblk5 V c 1 ⟨n + 1, h⟩) (iblk5 V c 0 ⟨n + 1, h⟩)
      (if (n + 1) % 635 = 0 then k5_pay1 else acc5 c n (Nat.lt_of_succ_lt h))

abbrev scM5 : Memref sig .tc .vmem S2000x64 .f32 := Memref.whole cc5_scratch0

/-- The invariant before point `t`: the accumulator holds `acc5 (t - 1)`, or anything when `t = 0`. -/
def PhiS5 (c : Dev nD) (t : Fin (cfg5.N + 1)) : sProp 𝕄 :=
  iprop(∃ d, ⌜∀ h : t.val ≠ 0, d = acc5 V c (t.val - 1) (by omega)⌝ ∗ owns (c : Thread nD τ) scM5 fullShare d
    ∗ Pipeline.scopedRestBut spec5 c [cc5_scratch0])

/-- Proof data of the call: the inputs keep their blocks, the result block is the running sum. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ := PhiS5 V c
  q _ := fullShare
  owed _ := 0

theorem after5_2 (c : Dev nD) (t : Fin cfg5.N) : (dat5 V c).after 2 t = acc5 V c t.val t.isLt := by dsimp only [dat5]

/-- What the body finds in an input window is what it leaves there, the window's block. -/
theorem before5_in (c : Dev nD) (t : Fin cfg5.N) :
    (∀ d, (dat5 V c).before 0 t d = (dat5 V c).after 0 t) ∧ (∀ d, (dat5 V c).before 1 t d = (dat5 V c).after 1 t) := by
  constructor <;> intro d <;>
  exact ((dat5 V c).before_in_eq_fetched _ rfl (fun _ => rfl) (fun _ _ _ => rfl) (fun t => by dsimp only [dat5]; rfl) t d).trans
    (by dsimp only [dat5]; rfl)

/-- One step of the running sum from `d`, which is `acc5 (t - 1)` unless point `t` starts a node block. -/
theorem acc5_step (c : Dev nD) (t : Fin cfg5.N) (d : Vec F S2000x64 .f32) (hd : ∀ h : t.val ≠ 0, d = acc5 V c (t.val - 1) (by omega)) :
    k5_pay2 (grid5.coords t) ((dat5 V c).after 1 t) ((dat5 V c).after 0 t) (if sfirst (grid5.coords t) then k5_pay1 else d)
      = (dat5 V c).after 2 t := by
  obtain ⟨n, hn⟩ := t
  cases n with
  | zero => rw [if_pos ((scond _).1.mpr rfl)]; rfl
  | succ n => obtain rfl := hd (Nat.succ_ne_zero n); exact congrArg _ (if_congr (scond ⟨n + 1, hn⟩).1 rfl rfl)

/-- By `srun`: the accumulator advances by `acc5_step`, and the result block receives it exactly when `slast`. -/
theorem body_obligation5 (c : Dev nD) : BodyObligation (dat5 (F := F) V c) (defs₀ (F := F)) Variants.none () Set.univ := fun t => by
  rw [bigSep_W5, bigSep_W5, show (dat5 V c).Φ = PhiS5 V c from rfl,
    show (dat5 V c).owesAt () t.succ = (dat5 V c).owesAt () t.castSucc from rfl]
  dsimp only
  unfold PhiS5
  simp only [(before5_in V c t).1, (before5_in V c t).2]
  iintro ⟨⟨%d, %hd, HS, HR⟩, Ho, ⟨%d0, H0⟩, ⟨%d1, H1⟩, ⟨%d2, H2⟩⟩
  iapply (srun c (grid5.coords t) _ (stage_whole5 0 _) _ (stage_whole5 1 _) _ (stage_whole5 2 _) _ (Memref.isWhole_whole _)
    _ _ _ d _ (acc5_step V c t d hd) Set.univ _)
  iframe H0 H1 H2 HS
  iintro ⟨H0, H1, H2, HS⟩
  iframe H0 H1 Ho
  isplitl [HS HR]
  · iexists _; iframe HS HR; ipureintro; exact fun _ => rfl
  by_cases h : slast (grid5.coords t)
  · rw [if_pos h, show idle5 2 (grid5.coords t) = false from by
      show (!(k5_cond2 (grid5.coords t) == 1#1)) = false; rw [Bool.not_eq_false', beq_iff_eq]; exact h]
    iexact H2
  · rw [if_neg h, show idle5 2 (grid5.coords t) = true from by
        show (!(k5_cond2 (grid5.coords t) == 1#1)) = true; rw [Bool.not_eq_true', beq_eq_false_iff_ne]; exact h,
      show (win5 2).flush t = false from Bool.eq_false_iff.mpr fun hf => h ((scond t).2.mpr ((flush5_2 t).mp hf))]
    iexists d2; iexact H2

/-- At `t = 0` the invariant asks nothing of the accumulator's contents. -/
theorem hin5 (c : Dev nD) : (Pipeline.scopedRest spec5 c : sProp 𝕄) ⊢ (dat5 V c).Φ 0 := by
  rw [scopedRest5_split]; show _ ⊢ PhiS5 V c 0; unfold PhiS5; simp only [scM5, owns_whole]
  iintro ⟨⟨%d, H⟩, R⟩; iexists d; iframe H R; ipureintro; exact fun h => absurd rfl h

/-- The invariant at any `t` gives the accumulator back at some contents. -/
theorem hout5 (c : Dev nD) : (dat5 V c).Φ (Fin.last cfg5.N) ⊢ (Pipeline.scopedRest spec5 c : sProp 𝕄) := by
  rw [scopedRest5_split]; show PhiS5 V c _ ⊢ _; unfold PhiS5; simp only [scM5, owns_whole]
  iintro ⟨%d, -, H, R⟩; iframe R; iexists d; iexact H

end Cert.KernelIdeal.Hand

end
-- ==== Proof.KI.Sched6.lean ====
import proofs.«180960_j9371618640573_1_alg».proof.Proof.Gen.KernelIdeal
import Idealize.ShloMosaic.Lib.Pipeline.Kit

noncomputable section

namespace Cert.KernelIdeal.GenP

open Cert.KernelIdeal.Gen
open Idealize.ShloMosaic Idealize.ShloMosaic.TcCoe
open Idealize.SL Idealize.SL.Sem

variable {F : FTy → Type} [FloatOps F]

/-- Every point of the linear head writes its own row block back. -/
theorem flush6_3 : ∀ t : Fin cfg6.N, (cfg6.win 3).flush t = true :=
  (by decide +kernel : ∀ t : Fin grid6.N, win6_3.flush t = true)

abbrev st6_0 (t : Fin cfg6.N) := (cfg6.win 0).stage (cfg6.slots t 0)
abbrev st6_1 (t : Fin cfg6.N) := (cfg6.win 1).stage (cfg6.slots t 1)
abbrev st6_2 (t : Fin cfg6.N) := (cfg6.win 2).stage (cfg6.slots t 2)
abbrev st6_3 (t : Fin cfg6.N) := (cfg6.win 3).stage (cfg6.slots t 3)

abbrev bodyAt6 (t : Fin cfg6.N) : Prog (TpuEff nD τ sig (Elt F) Λ₀ .tc) PUnit :=
  cc6__linear_kernel (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (win6_3.stage (cfg6.slots t 3)) (hstage6_3 ((cfg6.slots t 3).cast nbuf6_3))

end Cert.KernelIdeal.GenP

end
-- ==== Proof.KI.L6.lean ====
import proofs.«180960_j9371618640573_1_alg».proof.Proof.Gen.KernelIdeal.Launch
import proofs.«180960_j9371618640573_1_alg».proof.Proof.Gen.KernelIdeal.Skeleton
import proofs.«180960_j9371618640573_1_alg».proof.Proof.KI.Sched6
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The block point `t` writes: its rows of the features times the weight matrix, plus the bias. -/
def out6 (c : Dev nD) (t : Fin cfg6.N) : Vec F S2000x64 .f32 :=
  k6_pay1 (iblk6 V c 0 t) (iblk6 V c 1 t) (iblk6 V c 2 t)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 V c t
  Φ _ := Pipeline.scopedRest (Ix := Unit) (Name := ℕ) (U := UR sig nD τ) (Lvl := ℕ) (Val := Elt F) spec6 c
  q _ := fullShare
  owed _ := 0

theorem A_eq6 (c : Dev nD) (w : Fin cfg6.W) : (dat6 V c).A w = V c (Pipeline.arrRef spec6 w) := by
  dsimp only [dat6]

theorem after6_3 (c : Dev nD) (t : Fin cfg6.N) : (dat6 V c).after 3 t = out6 V c t := by dsimp only [dat6]

theorem before6 (c : Dev nD) (t : Fin cfg6.N) : (∀ d, (dat6 V c).before 0 t d = (dat6 V c).after 0 t)
    ∧ (∀ d, (dat6 V c).before 1 t d = (dat6 V c).after 1 t) ∧ ∀ d, (dat6 V c).before 2 t d = (dat6 V c).after 2 t :=
  ⟨(dat6 V c).before_in_eq_fetched 0 rfl (fun _ => rfl) (fun _ _ _ => rfl) (fun _ => rfl) t,
    (dat6 V c).before_in_eq_fetched 1 rfl (fun _ => rfl) (fun _ _ _ => rfl) (fun _ => rfl) t,
    (dat6 V c).before_in_eq_fetched 2 rfl (fun _ => rfl) (fun _ _ _ => rfl) (fun _ => rfl) t⟩

theorem hz6_2 : (![0, 0] : Fin 2 → Nat) = fun _ => 0 := funext fun a => by fin_cases a <;> rfl
theorem hz6_1 : (![0] : Fin 1 → Nat) = fun _ => 0 := funext fun a => by fin_cases a; rfl

theorem sound_kernel6 (c : Dev nD) (E : Set ℕ) (i : grid6.Coords)
    (arg1 : Memref sig .tc .vmem S2000x64 .f32) (harg1 : arg1.IsWhole)
    (arg2 : Memref sig .tc .vmem S64x64 .f32) (harg2 : arg2.IsWhole)
    (arg3 : Memref sig .tc .vmem S64 .f32) (harg3 : arg3.IsWhole)
    (arg4 : Memref sig .tc .vmem S2000x64 .f32) (harg4 : arg4.IsWhole)
    (x0 : Vec F S2000x64 .f32) (x1 : Vec F S64x64 .f32) (x2 : Vec F S64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k6_pay1 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _
      (fun y => ⟨_, List.mem_singleton_self _, View.mem_set_unit_zero hz6_2 inb_S2000x64_S2000x64_0_0 y⟩),
    View.canon_unit_zero hz6_2]
  simp only [View.readAt_eq_ld, View.ld_unit_zero (S := S2000x64) hz6_2, View.ld_unit_zero (S := S64x64) hz6_2,
    View.ld_unit_zero (S := S64) hz6_1]

theorem body_obligation6 (c : Dev nD) : BodyObligation (dat6 (F := F) V c) (defs₀ (F := F)) Variants.none () Set.univ := fun t => by
  rw [bigSep_W6, bigSep_W6]
  simp only [(before6 V c t).1, (before6 V c t).2.1, (before6 V c t).2.2]
  rw [show (dat6 V c).Φ t.succ = (dat6 V c).Φ t.castSucc from rfl,
    show (dat6 V c).owesAt () t.succ = (dat6 V c).owesAt () t.castSucc from rfl]
  show _ ⊢ wp _ _ _ (bodyAt6 t) _
  iintro ⟨HΦ, Ho, ⟨%d0, H0⟩, ⟨%d1, H1⟩, ⟨%d2, H2⟩, ⟨%d3, H3⟩⟩
  iapply (sound_kernel6 c Set.univ _ _ _ _ _ _ _ _ _ ((dat6 V c).after 0 t) ((dat6 V c).after 1 t) ((dat6 V c).after 2 t) _)
  iframe H0 H1 H2
  isplitl [H3]; · iexists _; iexact H3
  iintro ⟨H0, H1, H2, H3⟩
  iframe HΦ Ho H0 H1 H2
  iexact H3

theorem hin6 (c : Dev nD) : (Pipeline.scopedRest (Ix := Unit) (Name := ℕ) (U := UR sig nD τ) (Lvl := ℕ) (Val := Elt F) spec6 c : sProp 𝕄) ⊢ (dat6 V c).Φ 0 := by
  dsimp only [dat6]; exact .rfl

theorem hout6 (c : Dev nD) : (dat6 V c).Φ (Fin.last cfg6.N) ⊢ (Pipeline.scopedRest (Ix := Unit) (Name := ℕ) (U := UR sig nD τ) (Lvl := ℕ) (Val := Elt F) spec6 c : sProp 𝕄) := by
  dsimp only [dat6]; exact .rfl

end Cert.KernelIdeal.Hand

end
-- ==== Proof.KI.Family.lean ====
import proofs.«180960_j9371618640573_1_alg».proof.Proof.KI.G0
import proofs.«180960_j9371618640573_1_alg».proof.Proof.KI.S1
import proofs.«180960_j9371618640573_1_alg».proof.Proof.KI.G2
import proofs.«180960_j9371618640573_1_alg».proof.Proof.KI.S3
import proofs.«180960_j9371618640573_1_alg».proof.Proof.KI.G4
import proofs.«180960_j9371618640573_1_alg».proof.Proof.KI.S5
import proofs.«180960_j9371618640573_1_alg».proof.Proof.KI.L6
import proofs.«180960_j9371618640573_1_alg».proof.Proof.Gen.KernelIdeal.Regions
import proofs.«180960_j9371618640573_1_alg».proof.Proof.RegOf

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffers when call 0 is entered; `U(k+6)` is the same after call `k`: the one array that call writes reset to what the call leaves in it, `o(k+6)`. -/
abbrev U5 (c : Dev nD) : Valuation τ sig (Elt F) := Gen.V5 m c
abbrev T5 := tcOf (U5 m)

def o6 (c : Dev nD) : Buf (Elt F) ((c : Thread nD τ).loc main_v39) := (dat0 (T5 m) c).arrAt 3 cfg0.N
def U6 (c : Dev nD) : Valuation τ sig (Elt F) := Function.update (U5 m c) main_v39 (o6 m c)
abbrev T6 := tcOf (U6 m)

def o7 (c : Dev nD) : Buf (Elt F) ((c : Thread nD τ).loc main_v40) := (dat1 (T6 m) c).arrAt 2 cfg1.N
def U7 (c : Dev nD) : Valuation τ sig (Elt F) := Function.update (U6 m c) main_v40 (o7 m c)
abbrev T7 := tcOf (U7 m)

def o8 (c : Dev nD) : Buf (Elt F) ((c : Thread nD τ).loc main_v41) := (dat2 (T7 m) c).arrAt 3 cfg2.N
def U8 (c : Dev nD) : Valuation τ sig (Elt F) := Function.update (U7 m c) main_v41 (o8 m c)
abbrev T8 := tcOf (U8 m)

def o9 (c : Dev nD) : Buf (Elt F) ((c : Thread nD τ).loc main_v42) := (dat3 (T8 m) c).arrAt 2 cfg3.N
def U9 (c : Dev nD) : Valuation τ sig (Elt F) := Function.update (U8 m c) main_v42 (o9 m c)
abbrev T9 := tcOf (U9 m)

def o10 (c : Dev nD) : Buf (Elt F) ((c : Thread nD τ).loc main_v43) := (dat4 (T9 m) c).arrAt 3 cfg4.N
def U10 (c : Dev nD) : Valuation τ sig (Elt F) := Function.update (U9 m c) main_v43 (o10 m c)
abbrev T10 := tcOf (U10 m)

def o11 (c : Dev nD) : Buf (Elt F) ((c : Thread nD τ).loc main_v44) := (dat5 (T10 m) c).arrAt 2 cfg5.N
def U11 (c : Dev nD) : Valuation τ sig (Elt F) := Function.update (U10 m c) main_v44 (o11 m c)
abbrev T11 := tcOf (U11 m)

def o12 (c : Dev nD) : Buf (Elt F) ((c : Thread nD τ).loc main_v45) := (dat6 (T11 m) c).arrAt 3 cfg6.N
def U12 (c : Dev nD) : Valuation τ sig (Elt F) := Function.update (U11 m c) main_v45 (o12 m c)

/-- The contents after each call, in the form the generated boundary valuations `Gen.V6 … Gen.V12` take them. -/
def outs : Gen.Outs (F := F) := fun J r c =>
  match J with
  | 6 => U6 m c r | 7 => U7 m c r | 8 => U8 m c r | 9 => U9 m c r | 10 => U10 m c r | 11 => U11 m c r | _ => U12 m c r

/-- The generated boundary valuations at `outs` are `U6 … U12`. -/
theorem V6_eq (c : Dev nD) : Gen.V6 m (outs m) c = U6 m c := upd_eq rfl rfl
theorem V7_eq (c : Dev nD) : Gen.V7 m (outs m) c = U7 m c := upd_eq (V6_eq m c) rfl
theorem V8_eq (c : Dev nD) : Gen.V8 m (outs m) c = U8 m c := upd_eq (V7_eq m c) rfl
theorem V9_eq (c : Dev nD) : Gen.V9 m (outs m) c = U9 m c := upd_eq (V8_eq m c) rfl
theorem V10_eq (c : Dev nD) : Gen.V10 m (outs m) c = U10 m c := upd_eq (V9_eq m c) rfl
theorem V11_eq (c : Dev nD) : Gen.V11 m (outs m) c = U11 m c := upd_eq (V10_eq m c) rfl
theorem V12_eq (c : Dev nD) : Gen.V12 m (outs m) c = U12 m c := upd_eq (V11_eq m c) rfl

abbrev adm : (p : Fin 7) → (pcfgs (F := F) p).Adm := fun p => (cfgs p).toPCfg_adm

/-- Call `p`'s proof data, stated at the valuation the call is entered from. -/
def pdats : (p : Fin 7) → (c : Dev nD) → Dat τ (Elt F) Unit ℕ (UR sig nD τ) ℕ (Pipeline.pin (pcfgs (F := F)) adm p) c
  | ⟨0, _⟩ => fun c => dat0 (T5 m) c
  | ⟨1, _⟩ => fun c => dat1 (T6 m) c
  | ⟨2, _⟩ => fun c => dat2 (T7 m) c
  | ⟨3, _⟩ => fun c => dat3 (T8 m) c
  | ⟨4, _⟩ => fun c => dat4 (T9 m) c
  | ⟨5, _⟩ => fun c => dat5 (T10 m) c
  | ⟨6, _⟩ => fun c => dat6 (T11 m) c

abbrev 𝒱₀ : Variants := Variants.none
abbrev L : GSem nD τ sig → Finset Unit := fun _ => ∅
abbrev lv : GSem nD τ sig → Unit → ℕ := fun _ _ => 0

end Cert.KernelIdeal.Hand

end
-- ==== Proof.KI.Reg.lean ====
import proofs.«180960_j9371618640573_1_alg».proof.Proof.KI.Family

noncomputable section

namespace Cert.KernelIdeal.Hand

open Cert.KernelIdeal Cert.KernelIdeal.Gen Idealize.ShloMosaic

variable {F : FTy → Type} [FloatOps F] (m : (ℓ : Loc nD τ sig) → Buf (Elt F) ℓ)

def reg0 : Pipeline.RegionSeg (pcfgs (F := F)) adm (pdats m) () defs₀ 𝒱₀ L lv 0 :=
  regOf cfgs defs₀ (pdats m) launch0 3 (U5 m) (U6 m) (body_obligation0 (T5 m)) (hin0 (T5 m)) (hout0 (T5 m))
def reg1 : Pipeline.RegionSeg (pcfgs (F := F)) adm (pdats m) () defs₀ 𝒱₀ L lv 1 :=
  regOf cfgs defs₀ (pdats m) launch1 2 (U6 m) (U7 m) (body_obligation1 (T6 m)) (hin1 (T6 m)) (hout1 (T6 m))
def reg2 : Pipeline.RegionSeg (pcfgs (F := F)) adm (pdats m) () defs₀ 𝒱₀ L lv 2 :=
  regOf cfgs defs₀ (pdats m) launch2 3 (U7 m) (U8 m) (body_obligation2 (T7 m)) (hin2 (T7 m)) (hout2 (T7 m))
def reg3 : Pipeline.RegionSeg (pcfgs (F := F)) adm (pdats m) () defs₀ 𝒱₀ L lv 3 :=
  regOf cfgs defs₀ (pdats m) launch3 2 (U8 m) (U9 m) (body_obligation3 (T8 m)) (hin3 (T8 m)) (hout3 (T8 m))
def reg4 : Pipeline.RegionSeg (pcfgs (F := F)) adm (pdats m) () defs₀ 𝒱₀ L lv 4 :=
  regOf cfgs defs₀ (pdats m) launch4 3 (U9 m) (U10 m) (body_obligation4 (T9 m)) (hin4 (T9 m)) (hout4 (T9 m))
def reg5 : Pipeline.RegionSeg (pcfgs (F := F)) adm (pdats m) () defs₀ 𝒱₀ L lv 5 :=
  regOf cfgs defs₀ (pdats m) launch5 2 (U10 m) (U11 m) (body_obligation5 (T10 m)) (hin5 (T10 m)) (hout5 (T10 m))
def reg6 : Pipeline.RegionSeg (pcfgs (F := F)) adm (pdats m) () defs₀ 𝒱₀ L lv 6 :=
  regOf cfgs defs₀ (pdats m) launch6 3 (U11 m) (U12 m) (body_obligation6 (T11 m)) (hin6 (T11 m)) (hout6 (T11 m))

end Cert.KernelIdeal.Hand

end
-- ==== Proof.KI.Frame.lean ====
import proofs.«180960_j9371618640573_1_alg».proof.Proof.KI.Reg

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  rw [ownU_emb₁]
  iintro Hu; imodintro
  isplitl [Hu]; · iexact Hu
  iapply (Entails.of_eq (BI.bigSep_emp_const _).symm); iempintro

theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE7 (c : Dev nD) : R (F := F) c ⊢ (iprop(∃ W, owes (c : Thread nD τ) (0 : CellTallies nD τ sig Unit) W) : sProp 𝕄) := by
  iintro ⟨-, HO⟩; iexact HO

set_option backward.isDefEq.respectTransparency.types false in
/-- The seven segments chained by the generated conditional frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := hu₀)
    (E := fun _ c => R c) (hE0 := hE0 ρ) (hE7 := hE7)
    (reg0 m) (fun c => .rfl) (fun c => by rw [V6_eq]; exact .rfl)
    (reg1 m) (fun c => by rw [V6_eq]; exact .rfl) (fun c => by rw [V7_eq]; exact .rfl)
    (reg2 m) (fun c => by rw [V7_eq]; exact .rfl) (fun c => by rw [V8_eq]; exact .rfl)
    (reg3 m) (fun c => by rw [V8_eq]; exact .rfl) (fun c => by rw [V9_eq]; exact .rfl)
    (reg4 m) (fun c => by rw [V9_eq]; exact .rfl) (fun c => by rw [V10_eq]; exact .rfl)
    (reg5 m) (fun c => by rw [V10_eq]; exact .rfl) (fun c => by rw [V11_eq]; exact .rfl)
    (reg6 m) (fun c => by rw [V11_eq]; exact .rfl) (fun c => by rw [V12_eq]; exact .rfl)

end Cert.KernelIdeal.Hand

end
-- ==== Proof.KI.FamilyKeep.lean ====
import proofs.«180960_j9371618640573_1_alg».proof.Proof.KI.Family

namespace Cert.KernelIdeal.Hand

open Cert.KernelIdeal Idealize.ShloMosaic Idealize.ShloMosaic.TcCoe

variable {F : FTy → Type} [FloatOps F] (m : (ℓ : Loc nD τ sig) → Buf (Elt F) ℓ) (c : Dev nD)

/-- Off the reference it is reset at, a valuation is what it was. -/
theorem upd_of_ne (V : Valuation τ sig (Elt F)) {r b : Ref sig .tc} (o) (hb : b ≠ r) : Function.update V r o b = V b :=
  Function.update_of_ne (StableHlo.devRef_ne_of_ne hb) _ _

theorem U6_out : U6 m c main_v39 = o6 m c := Function.update_self _ _ _
theorem U7_out : U7 m c main_v40 = o7 m c := Function.update_self _ _ _
theorem U8_out : U8 m c main_v41 = o8 m c := Function.update_self _ _ _
theorem U9_out : U9 m c main_v42 = o9 m c := Function.update_self _ _ _
theorem U10_out : U10 m c main_v43 = o10 m c := Function.update_self _ _ _
theorem U11_out : U11 m c main_v44 = o11 m c := Function.update_self _ _ _
theorem U12_out : U12 m c main_v45 = o12 m c := Function.update_self _ _ _

/-- `b` is none of the arrays calls 0 to 5 write. -/
abbrev Kept (b : Ref sig .tc) : Prop :=
  b ≠ main_v39 ∧ b ≠ main_v40 ∧ b ≠ main_v41 ∧ b ≠ main_v42 ∧ b ≠ main_v43 ∧ b ≠ main_v44

variable (b : Ref sig .tc) (hb : Kept b)
include hb
/-- Such a reference holds, after each of those calls, what it held when call 0 was entered. -/
theorem U6_keep : U6 m c b = U5 m c b := upd_of_ne _ _ hb.1
theorem U7_keep : U7 m c b = U5 m c b := (upd_of_ne _ _ hb.2.1).trans (U6_keep m c b hb)
theorem U8_keep : U8 m c b = U5 m c b := (upd_of_ne _ _ hb.2.2.1).trans (U7_keep m c b hb)
theorem U9_keep : U9 m c b = U5 m c b := (upd_of_ne _ _ hb.2.2.2.1).trans (U8_keep m c b hb)
theorem U10_keep : U10 m c b = U5 m c b := (upd_of_ne _ _ hb.2.2.2.2.1).trans (U9_keep m c b hb)
theorem U11_keep : U11 m c b = U5 m c b := (upd_of_ne _ _ hb.2.2.2.2.2).trans (U10_keep m c b hb)

end Cert.KernelIdeal.Hand
-- ==== Proof.KI.RunValue.lean ====
import proofs.«180960_j9371618640573_1_alg».proof.Proof.KI.Frame
import proofs.«180960_j9371618640573_1_alg».proof.Proof.KI.ValueCond
import proofs.«180960_j9371618640573_1_alg».proof.Proof.KI.FamilyKeep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

theorem run_value : θ_run defs (onTc (τ := τ) (main (F := F))) ⟨m, fun _ => 0, ρ⟩ (fun r => ∀ c : Dev nD,
      r.2.mem ((c.tc : Thread nD τ).loc main_v45) = o12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans ((congrFun (V12_eq m c) _).trans (U12_out m c)), (h c).2⟩)
    (value_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := hu₀)
    (E := fun _ c => R c) (hE0 := hE0 ρ) (hE7 := hE7)
    (reg0 m) (fun c => .rfl) (fun c => by rw [V6_eq]; exact .rfl)
    (reg1 m) (fun c => by rw [V6_eq]; exact .rfl) (fun c => by rw [V7_eq]; exact .rfl)
    (reg2 m) (fun c => by rw [V7_eq]; exact .rfl) (fun c => by rw [V8_eq]; exact .rfl)
    (reg3 m) (fun c => by rw [V8_eq]; exact .rfl) (fun c => by rw [V9_eq]; exact .rfl)
    (reg4 m) (fun c => by rw [V9_eq]; exact .rfl) (fun c => by rw [V10_eq]; exact .rfl)
    (reg5 m) (fun c => by rw [V10_eq]; exact .rfl) (fun c => by rw [V11_eq]; exact .rfl)
    (reg6 m) (fun c => by rw [V11_eq]; exact .rfl) (fun c => by rw [V12_eq]; exact .rfl))

end Cert.KernelIdeal.Hand

end
-- ==== Proof.Spec.lean ====
import Idealize.ShloMosaic.PureOps.Ideal
import Idealize.ShloMosaic.Lib.ValueIdx

noncomputable section

namespace Cert.Spec

open Idealize.ShloMosaic

abbrev NodeMat : Type := Fin 100000 → Fin 64 → EReal

abbrev EdgeMat : Type := Fin 1300480 → Fin 64 → EReal

def padI (v : Fin 1300000 → BitVec 32) : Fin 1300480 → BitVec 32 :=
  fun e => if h : e.val < 1300000 then v ⟨e.val, h⟩ else 0#32

def padF (v : Fin 1300000 → EReal) : Fin 1300480 → EReal :=
  fun e => if h : e.val < 1300000 then v ⟨e.val, h⟩ else 0

def kGather (h : NodeMat) (srcP : Fin 1300480 → BitVec 32) (normP : Fin 1300480 → EReal) : EdgeMat :=
  fun e c => ∑ nb : Fin 50, ∑ k : Fin 2000,
    ((if srcP e = BitVec.ofNat 32 (nb.val * 2000 + k.val) then (1 : EReal) else 0) * normP e)
      * h ⟨nb.val * 2000 + k.val, by omega⟩ c

def kScatter (m : EdgeMat) (dstP : Fin 1300480 → BitVec 32) : NodeMat :=
  fun n c => ∑ eb : Fin 635, ∑ k : Fin 2048,
    (if BitVec.ofNat 32 n.val = dstP ⟨eb.val * 2048 + k.val, by omega⟩ then (1 : EReal) else 0)
      * m ⟨eb.val * 2048 + k.val, by omega⟩ c

def kHop (h : NodeMat) (src dst : Fin 1300000 → BitVec 32) (norm : Fin 1300000 → EReal) : NodeMat :=
  kScatter (kGather h (padI src) (padF norm)) (padI dst)

def gatherRow (w : BitVec 32) : Fin 100000 :=
  ⟨min ((if w.slt 0#32 then w + 100000#32 else w).toInt.toNat) 99999, by omega⟩

def rHop (h : NodeMat) (src dst : Fin 1300000 → BitVec 32) (norm : Fin 1300000 → EReal) : NodeMat :=
  fun n c => ∑ e : Fin 1300000, if (dst e).toInt = (n.val : Int) then norm e * h (gatherRow (src e)) c else 0

def linear (h : NodeMat) (W : Fin 64 → Fin 64 → EReal) (b : Fin 64 → EReal) : NodeMat :=
  fun n c => (∑ k : Fin 64, h n k * W k c) + b c

end Cert.Spec

end
-- ==== Proof.KI.GValue.lean ====
import proofs.«180960_j9371618640573_1_alg».proof.Proof.KI.G0
import proofs.«180960_j9371618640573_1_alg».proof.Proof.KI.G2
import proofs.«180960_j9371618640573_1_alg».proof.Proof.KI.G4
import proofs.«180960_j9371618640573_1_alg».proof.Proof.Spec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.KernelIdeal.Hand

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx
open scoped BigOperators

namespace Gather

/-- Entry (p, q) of the product l · r, nothing being added to it. -/
theorem mmv_apply (l : FVec Ideal S2048x2000 .bf16) (r : FVec Ideal S2000x64 .bf16) (p : Fin 2048) (q : Fin 64) :
    matmul dot_S2048x2000_S2000x64_S2048x64_1_0_0_1_n_n none l r (constant S2048x64 .f32 0x00000000#32) (ix2 p q) = ∑ k : Fin 2000, l (ix2 p k) * r (ix2 k q) :=
  (Ideal.matmul_constant_zero_apply _ none l r _).trans
    ((Ideal.dotGeneral_apply _ none _ l r _).symm.trans (StackMember.dotGeneral_plain_apply none l r p q))

theorem colv_apply {α : Type} (x : S2048.Idx → α) (h : S2048.ShapeCasts S2048x1) (p : Fin 2048) (u : Fin 1) :
    shapeCast S2048x1 x h (ix2 p u) = x (ix1 p) :=
  shapeCast_apply x h _ _ (by
    have hu : u.val = 0 := by omega
    rw [Shape.rowMajor_val_two, Shape.rowMajor_val_one]
    show p.val = p.val * 1 + u.val
    omega)

theorem colbv_apply {α : Type} (x : S2048x1.Idx → α) (h : S2048x1.Broadcasts S2048x2000) (p : Fin 2048) (k : Fin 2000) :
    broadcastTo S2048x2000 x h (ix2 p k) = x (ix2 p (0 : Fin 1)) := by
  refine broadcastTo_apply x h (ix2 p k) (ix2 p (0 : Fin 1)) fun ax => ?_
  match ax with
  | ⟨0, _⟩ => rfl
  | ⟨1, _⟩ => rfl

theorem rowbv_apply {α : Type} (x : S1x2000.Idx → α) (h : S1x2000.Broadcasts S2048x2000) (p : Fin 2048) (k : Fin 2000) :
    broadcastTo S2048x2000 x h (ix2 p k) = x (ix2 (0 : Fin 1) k) :=
  broadcastTo_1b_ab_apply x h p k

/-- [a = b] as a real number: 1 or 0. -/
theorem indv (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  unfold IntOp.cmpi
  by_cases hab : a = b
  · subst hab
    rw [if_pos rfl]
    simp
  · rw [if_neg hab]
    have hne : (a == b) = false := by simpa using hab
    simp [hne]

/-- nb * 2000 + k computed on 32-bit words is the word of nb * 2000 + k. -/
theorem nodev (nb k : ℕ) :
    IntOp.addi (Scalar.muli (BitVec.ofNat 32 nb) 2000#32) (BitVec.ofNat 32 k) = BitVec.ofNat 32 (nb * 2000 + k) := by
  show BitVec.ofNat 32 nb * BitVec.ofNat 32 2000 + BitVec.ofNat 32 k = _
  rw [← BitVec.ofNat_mul, ← BitVec.ofNat_add]

theorem cmpiv_apply {s : Shape} {w : ℕ} (pr : CmpIPredicate) (a b : IVec s w) (i : s.Idx) :
    cmpi pr a b i = IntOp.cmpi pr (a i) (b i) := rfl
theorem addiv_apply {s : Shape} {w : ℕ} (a b : IVec s w) (i : s.Idx) : addi a b i = IntOp.addi (a i) (b i) := rfl

/-- One point's contribution to entry (p, q): Σ k, [src p = nb * 2000 + k] * w p * x k q. -/
def addv (i : grid0.Coords) (v3 : IVec S2048 32) (v16 : FVec Ideal S2048 .f32) (v22 : FVec Ideal S2000x64 .f32)
    (j : S2048x64.Idx) : EReal :=
  ∑ k : Fin 2000, ((if v3 (ix1 (j 0)) = BitVec.ofNat 32 ((i 1).val * 2000 + k.val) then (1 : EReal) else 0) * v16 (ix1 (j 0)))
    * v22 (ix2 k (j 1))

theorem payv_apply (i : grid0.Coords) (v3 : IVec S2048 32) (v16 : FVec Ideal S2048 .f32) (v22 : FVec Ideal S2000x64 .f32)
    (v24 : FVec Ideal S2048x64 .f32) (p : Fin 2048) (q : Fin 64) :
    k0_pay2 (F := Ideal) i v3 v16 v22 v24 (ix2 p q) = v24 (ix2 p q) + addv i v3 v16 v22 (ix2 p q) := by
  unfold k0_pay2 addv
  dsimp only
  simp only [shapeCast_self]
  rw [addf_apply, mmv_apply]
  refine congrArg (v24 (ix2 p q) + ·) (Finset.sum_congr rfl fun k _ => ?_)
  show _ = (if v3 (ix1 p) = BitVec.ofNat 32 ((i 1).val * 2000 + k.val) then (1 : EReal) else 0) * v16 (ix1 p) * v22 (ix2 k q)
  simp only [mulf_apply, truncf_apply, sitofp_apply, extui_apply, cmpiv_apply, addiv_apply, colbv_apply, colv_apply,
    rowbv_apply, broadcast_apply, iota_single_apply]
  rw [iota_single_apply, nodev, indv]

theorem zerov_apply (j : S2048x64.Idx) : k0_pay1 (F := Ideal) j = 0 := by
  unfold k0_pay1
  rw [shapeCast_self]
  show Ideal.ofBits .f32 0x00000000#32 = 0
  exact Ideal.ofBits_zero_f32

/-- The later calls' payload is the first call's with one more identity cast. -/
theorem pay2_0 (i : grid0.Coords) (a : IVec S2048 32) (b : FVec Ideal S2048 .f32) (d : FVec Ideal S2000x64 .f32)
    (x : FVec Ideal S2048x64 .f32) : k2_pay2 (F := Ideal) i a b d x = k0_pay2 i a b d x := by
  unfold k2_pay2 k0_pay2
  rw [shapeCast_self d]

theorem crdv (t : Fin cfg0.N) : (grid0.coords t 1).val = t.val % 50 := by
  show t.val / grid0.stride 1 % 50 = t.val % 50
  rw [show grid0.stride 1 = 1 by decide]
  omega

/-- Point t reads node block t % 50 of the features. -/
theorem idxv (t : Fin cfg0.N) : win0_0.index t 0 = t.val % 50 := by
  show (BitVec.ofNat 32 (grid0.coords t 1).val).toNat = _
  rw [crdv, BitVec.toNat_ofNat]
  omega

variable (A0 : S100000x64.Idx → EReal) (A1 : S1300480.Idx → BitVec 32) (A2 : S1300480.Idx → EReal)

/-- The three input blocks at a point, of any three arrays: the calls differ in their arrays only. -/
abbrev fblkv (t : Fin cfg0.N) : FVec Ideal S2000x64 .f32 := ((cfg0.win 0).blk t).view.read (Elt Ideal) A0
abbrev sblkv (t : Fin cfg0.N) : IVec S2048 32 := ((cfg0.win 1).blk t).view.read (Elt Ideal) A1
abbrev wblkv (t : Fin cfg0.N) : FVec Ideal S2048 .f32 := ((cfg0.win 2).blk t).view.read (Elt Ideal) A2

theorem fblkv_apply (t : Fin cfg0.N) (k : Fin 2000) (q : Fin 64) (n : Fin 100000)
    (hn : n.val = t.val % 50 * 2000 + k.val) : fblkv A0 t (ix2 k q) = A0 (ix2 n q) := by
  show A0 _ = A0 _
  refine congrArg A0 (funext fun a => Fin.ext ?_)
  match a with
  | ⟨0, _⟩ => show win0_0.index t 0 * 2000 + 1 * k.val = n.val; rw [idxv, hn]; omega
  | ⟨1, _⟩ => show 0 * 64 + 1 * q.val = q.val; omega

theorem sblkv_apply (t : Fin cfg0.N) (p : Fin 2048) (e : Fin 1300480)
    (he : e.val = t.val / 50 * 2048 + p.val) : sblkv A1 t (ix1 p) = A1 (ix1 e) := by
  show A1 _ = A1 _
  refine congrArg A1 (funext fun a => Fin.ext ?_)
  match a with
  | ⟨0, _⟩ => show win0_3.index t 0 * 2048 + 1 * p.val = e.val; rw [(gIndex_3 t).1, he]; omega

theorem wblkv_apply (t : Fin cfg0.N) (p : Fin 2048) (e : Fin 1300480)
    (he : e.val = t.val / 50 * 2048 + p.val) : wblkv A2 t (ix1 p) = A2 (ix1 e) := by
  show A2 _ = A2 _
  refine congrArg A2 (funext fun a => Fin.ext ?_)
  match a with
  | ⟨0, _⟩ => show win0_3.index t 0 * 2048 + 1 * p.val = e.val; rw [(gIndex_3 t).1, he]; omega

/-- A point's step: the payload over the point's blocks, added to what the point before left. -/
def stpv (n : ℕ) (h : n < cfg0.N) (x : FVec Ideal S2048x64 .f32) : FVec Ideal S2048x64 .f32 :=
  k0_pay2 (grid0.coords ⟨n, h⟩) (sblkv A1 ⟨n, h⟩) (wblkv A2 ⟨n, h⟩) (fblkv A0 ⟨n, h⟩) x

def termv (n : ℕ) (j : S2048x64.Idx) : EReal :=
  if h : n < cfg0.N then addv (grid0.coords ⟨n, h⟩) (sblkv A1 ⟨n, h⟩) (wblkv A2 ⟨n, h⟩) (fblkv A0 ⟨n, h⟩) j else 0

theorem stpv_apply (n : ℕ) (h : n < cfg0.N) (x : FVec Ideal S2048x64 .f32) (i : S2048x64.Idx) :
    stpv A0 A1 A2 n h x i = x i + termv A0 A1 A2 n i := by
  obtain ⟨p, q, rfl⟩ : ∃ (p : Fin 2048) (q : Fin 64), i = ix2 p q := ⟨i 0, i 1, eq_ix2 i⟩
  unfold termv
  rw [dif_pos h]
  exact payv_apply _ _ _ _ x p q

theorem termv_eq (eb : Fin 635) (nb : Fin 50) (p : Fin 2048) (q : Fin 64) (e : Fin 1300480)
    (he : e.val = eb.val * 2048 + p.val) :
    termv A0 A1 A2 (50 * eb.val + nb.val) (ix2 p q)
      = ∑ k : Fin 2000, ((if A1 (ix1 e) = BitVec.ofNat 32 (nb.val * 2000 + k.val) then (1 : EReal) else 0) * A2 (ix1 e))
          * A0 (ix2 (⟨nb.val * 2000 + k.val, by omega⟩ : Fin 100000) q) := by
  have hN : grid0.N = 31750 := N_0
  obtain ⟨t, ht⟩ : ∃ t : Fin cfg0.N, t.val = 50 * eb.val + nb.val := ⟨⟨_, by show _ < grid0.N; omega⟩, rfl⟩
  have hm : t.val % 50 = nb.val := by omega
  rw [← ht]
  unfold termv
  rw [dif_pos t.isLt]
  refine Finset.sum_congr rfl fun k _ => ?_
  show ((if sblkv A1 t (ix1 p) = BitVec.ofNat 32 ((grid0.coords t 1).val * 2000 + k.val) then (1 : EReal) else 0) * wblkv A2 t (ix1 p))
    * fblkv A0 t (ix2 k q) = _
  rw [crdv, hm, sblkv_apply A1 t p e (by omega), wblkv_apply A2 t p e (by omega),
    fblkv_apply A0 t k q ⟨nb.val * 2000 + k.val, by omega⟩ (by rw [hm])]

/-- kGather of the three arrays, indexed as the message array is. -/
abbrev Gv : S1300480x64.Idx → EReal := fun i =>
  Cert.Spec.kGather (fun n k => A0 (ix2 n k)) (fun e => A1 (ix1 e)) (fun e => A2 (ix1 e)) (i 0) (i 1)

variable (acc : (n : ℕ) → n < cfg0.N → FVec Ideal S2048x64 .f32)
  (pay : grid0.Coords → IVec S2048 32 → FVec Ideal S2048 .f32 → FVec Ideal S2000x64 .f32 → FVec Ideal S2048x64 .f32 → FVec Ideal S2048x64 .f32)
  (hp : ∀ i a b d x, pay i a b d x = k0_pay2 i a b d x)
  (h0 : ∀ t : Fin cfg0.N, t.val % 50 = 0 → acc t.val t.isLt = pay (grid0.coords t) (sblkv A1 t) (wblkv A2 t) (fblkv A0 t) k0_pay1)
  (hs : ∀ t : Fin cfg0.N, ¬t.val % 50 = 0 → acc t.val t.isLt
    = pay (grid0.coords t) (sblkv A1 t) (wblkv A2 t) (fblkv A0 t) (acc (t.val - 1) (Nat.lt_of_le_of_lt (Nat.sub_le _ _) t.isLt)))

include hp h0 hs in
/-- Zero plus the 50 contributions of edge block eb is kGather at edge eb * 2048 + p. -/
theorem accv_eq (eb : Fin 635) (h : 50 * eb.val + 49 < cfg0.N) (p : Fin 2048) (q : Fin 64) (e : Fin 1300480)
    (he : e.val = eb.val * 2048 + p.val) : acc (50 * eb.val + 49) h (ix2 p q) = Gv A0 A1 A2 (ix2 e q) := by
  rw [Pipeline.eq_accAt acc 50 (fun n h => stpv A0 A1 A2 n h k0_pay1) (stpv A0 A1 A2) (fun n h hm => (h0 ⟨n, h⟩ hm).trans (hp ..))
      (fun n h hm => (hs ⟨n + 1, h⟩ hm).trans (hp ..)) eb 49 (by decide) h,
    Pipeline.accAt_add_apply _ (stpv A0 A1 A2) (fun _ => (0 : EReal)) (termv A0 A1 A2) (50 * eb) 49
      (fun hb i => by rw [stpv_apply, zerov_apply]) (fun n hn x i _ _ => stpv_apply A0 A1 A2 n hn x i) 49 le_rfl h (ix2 p q),
    zero_add, Finset.sum_range]
  show _ = Cert.Spec.kGather (fun n k => A0 (ix2 n k)) (fun e => A1 (ix1 e)) (fun e => A2 (ix1 e)) e q
  unfold Cert.Spec.kGather
  exact Finset.sum_congr rfl fun nb _ => termv_eq A0 A1 A2 eb nb p q e he

include hp h0 hs in
/-- After node block 49 the accumulator is block t / 50 of kGather. -/
theorem flushedv_eq (t : Fin cfg0.N) (h49 : t.val % 50 = 49) (x : FVec Ideal S2048x64 .f32) (hx : x = acc t.val t.isLt) :
    (cfg0.win 3).cut (grid0.coords t) x = ((cfg0.win 3).blk t).view.read (Elt Ideal) (Gv A0 A1 A2) := by
  subst hx
  have hN : grid0.N = 31750 := N_0
  have ht : t.val < grid0.N := t.isLt
  funext y
  have hy0 : (y 0).val < 2048 := (y 0).isLt
  have hy1 : (y 1).val < 64 := (y 1).isLt
  have hlt : 50 * (t.val / 50) + 49 < cfg0.N := by show _ < grid0.N; omega
  have key : ∀ (u : ℕ) (hu : u < cfg0.N), u = t.val → acc u hu = acc t.val t.isLt := fun u hu e => by subst e; rfl
  have hx : (cfg0.win 3).xinj (grid0.coords t) y = ix2 (⟨(y 0).val, hy0⟩ : Fin 2048) (⟨(y 1).val, hy1⟩ : Fin 64) :=
    funext fun a => match a with
      | ⟨0, _⟩ => rfl
      | ⟨1, _⟩ => rfl
  rw [View.read_apply]
  show acc t.val t.isLt ((cfg0.win 3).xinj (grid0.coords t) y) = Gv A0 A1 A2 (((cfg0.win 3).blk t).view.emb y)
  rw [hx, ← key (50 * (t.val / 50) + 49) hlt (by omega)]
  have hemb : ((cfg0.win 3).blk t).view.emb y
      = ix2 (⟨t.val / 50 * 2048 + (y 0).val, by omega⟩ : Fin 1300480) (⟨(y 1).val, hy1⟩ : Fin 64) :=
    funext fun a => Fin.ext (by
      match a with
      | ⟨0, _⟩ => show win0_3.index t 0 * 2048 + 1 * (y 0).val = t.val / 50 * 2048 + (y 0).val; rw [(gIndex_3 t).1]; omega
      | ⟨1, _⟩ => show 0 * 64 + 1 * (y 1).val = (y 1).val; omega)
  rw [hemb]
  exact accv_eq A0 A1 A2 acc pay hp h0 hs ⟨t.val / 50, by omega⟩ hlt ⟨(y 0).val, hy0⟩ ⟨(y 1).val, hy1⟩ ⟨t.val / 50 * 2048 + (y 0).val, by omega⟩ rfl

/-- The 635 blocks of 2048 rows tile the message array. -/
theorem coverv (i : S1300480x64.Idx) : ∃ t : Fin cfg0.N, (cfg0.win 3).flush t = true ∧ i ∈ ((cfg0.win 3).blk t).view.set := by
  have hN : grid0.N = 31750 := N_0
  have hi0 : (i 0).val < 1300480 := (i 0).isLt
  have hi1 : (i 1).val < 64 := (i 1).isLt
  obtain ⟨t, ht⟩ : ∃ t : Fin cfg0.N, t.val = 50 * ((i 0).val / 2048) + 49 := ⟨⟨_, by show _ < grid0.N; omega⟩, rfl⟩
  refine ⟨t, (flush0_3 t).mpr (by omega), ?_⟩
  show i ∈ ((View.whole main_v39).slice (win0_3.rect t)).set
  rw [View.set_slice_whole, Rect.mem_set_unit]
  intro a
  match a with
  | ⟨0, _⟩ =>
    show win0_3.index t 0 * 2048 ≤ (i 0).val ∧ (i 0).val < win0_3.index t 0 * 2048 + 2048
    rw [(gIndex_3 t).1]
    omega
  | ⟨1, _⟩ =>
    show 0 * 64 ≤ (i 1).val ∧ (i 1).val < 0 * 64 + 64
    omega

end Gather

open Gather

variable (V : (c : Dev nD) → (b : Ref sig .tc) → Buf (Elt Ideal) ((c : Thread nD τ).loc b))

/-- Each gather call leaves kGather of its three input arrays in its message array. -/
theorem value0 (c : Dev nD) (e : Fin 1300480) (cc : Fin 64) :
    (dat0 (F := Ideal) V c).arrAt 3 cfg0.N (ValueIdx.ix2 e cc)
      = Cert.Spec.kGather (fun n k => V c (Pipeline.arrRef spec0 0) (ValueIdx.ix2 n k)) (fun e => V c (Pipeline.arrRef spec0 1) (ValueIdx.ix1 e))
          (fun e => V c (Pipeline.arrRef spec0 2) (ValueIdx.ix1 e)) e cc :=
  congrFun ((dat0 V c).arrAt_eq_of_cover 3 (Gv (V c (Pipeline.arrRef spec0 0)) (V c (Pipeline.arrRef spec0 1)) (V c (Pipeline.arrRef spec0 2)))
    (fun t hf => flushedv_eq _ _ _ (acc0 V c) (k0_pay2 (F := Ideal)) (fun _ _ _ _ _ => rfl) (acc0_first V c) (acc0_next V c) t ((flush0_3 t).mp hf) _ (after0_3 V c t))
    coverv) (ix2 e cc)

theorem value2 (c : Dev nD) (e : Fin 1300480) (cc : Fin 64) :
    (dat2 (F := Ideal) V c).arrAt 3 cfg2.N (ValueIdx.ix2 e cc)
      = Cert.Spec.kGather (fun n k => V c (Pipeline.arrRef spec2 0) (ValueIdx.ix2 n k)) (fun e => V c (Pipeline.arrRef spec2 1) (ValueIdx.ix1 e))
          (fun e => V c (Pipeline.arrRef spec2 2) (ValueIdx.ix1 e)) e cc :=
  congrFun ((dat2 V c).arrAt_eq_of_cover 3 (Gv (V c (Pipeline.arrRef spec2 0)) (V c (Pipeline.arrRef spec2 1)) (V c (Pipeline.arrRef spec2 2)))
    (fun t hf => flushedv_eq _ _ _ (acc2 V c) (k2_pay2 (F := Ideal)) pay2_0 (acc2_first V c) (acc2_next V c) t ((flush2_3 t).mp hf) _ (after2_3 V c t))
    coverv) (ix2 e cc)

theorem value4 (c : Dev nD) (e : Fin 1300480) (cc : Fin 64) :
    (dat4 (F := Ideal) V c).arrAt 3 cfg4.N (ValueIdx.ix2 e cc)
      = Cert.Spec.kGather (fun n k => V c (Pipeline.arrRef spec4 0) (ValueIdx.ix2 n k)) (fun e => V c (Pipeline.arrRef spec4 1) (ValueIdx.ix1 e))
          (fun e => V c (Pipeline.arrRef spec4 2) (ValueIdx.ix1 e)) e cc :=
  congrFun ((dat4 V c).arrAt_eq_of_cover 3 (Gv (V c (Pipeline.arrRef spec4 0)) (V c (Pipeline.arrRef spec4 1)) (V c (Pipeline.arrRef spec4 2)))
    (fun t hf => flushedv_eq _ _ _ (acc4 V c) (k4_pay2 (F := Ideal)) pay2_0 (acc4_first V c) (acc4_next V c) t ((flush4_3 t).mp hf) _ (after4_3 V c t))
    coverv) (ix2 e cc)

end Cert.KernelIdeal.Hand

end
-- ==== Proof.KI.SValue.lean ====
/-
  A scatter call's result at the extended reals: at the last of a node block's 635 edge blocks the accumulator holds, per node
  and feature, the sum over all padded edges of the indicator "this node is the edge's target" times the edge's message.
-/
import proofs.«180960_j9371618640573_1_alg».proof.Proof.Gen.KernelIdeal.Launch
import proofs.«180960_j9371618640573_1_alg».proof.Proof.Gen.KernelIdeal.Skeleton
import proofs.«180960_j9371618640573_1_alg».proof.Proof.KI.Sched1
import proofs.«180960_j9371618640573_1_alg».proof.Proof.Spec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.KernelIdeal.Hand

open Cert.KernelIdeal Cert.KernelIdeal.Gen Cert.KernelIdeal.GenP
open Idealize.ShloMosaic Idealize.ShloMosaic.TcCoe Idealize.ShloMosaic.ValueIdx

/-- The comparison bit, widened and read as a real, is the indicator of equality. -/
theorem scInd (X Y : BitVec 32) :
    ((((IntOp.cmpi .eq X Y).setWidth 32).toInt : ℝ) : EReal) = if X = Y then (1 : EReal) else 0 := by
  by_cases h : X = Y
  · subst h
    rw [if_pos rfl]
    simp [IntOp.cmpi]
  · rw [if_neg h]
    have : (X == Y) = false := by simpa using h
    simp [IntOp.cmpi, this]

/-- Block a's first node number plus the row's position is the node's number, as words. -/
theorem scNode (a p : Nat) :
    IntOp.addi (Scalar.muli (BitVec.ofNat 32 a) 2000#32) (BitVec.ofNat 32 p) = BitVec.ofNat 32 (a * 2000 + p) := by
  show BitVec.ofNat 32 a * 2000#32 + BitVec.ofNat 32 p = _
  rw [BitVec.ofNat_add, BitVec.ofNat_mul]

/-- The one-hot of a block's node numbers against its target words at (p, k): 1 when node a * 2000 + p is edge k's target. -/
theorem scHot (i : grid1.Coords) (v7 : Vec Ideal S2048 .i32) (p : Fin 2000) (k : Fin 2048) :
    (truncf .bf16 (sitofp (F := Ideal) .f32 (extui 32 (cmpi .eq
        (broadcastTo S2000x2048 (addi (broadcast S2000x1 (Scalar.muli (BitVec.ofNat 32 (i 0).val) 2000#32))
          (iota .tc S2000x1 32 [0] iota_S2000x1_d0_w32)) broadcasts_S2000x1_S2000x2048)
        (broadcastTo S2000x2048 (shapeCast S1x2048 (shapeCast S2048 v7 shapeCasts_S2048_S2048) shapeCasts_S2048_S1x2048)
          broadcasts_S1x2048_S2000x2048)) natLt_1_32)) bitsLt_bf16_f32 : FVec Ideal S2000x2048 .bf16) (ix2 p k)
      = if BitVec.ofNat 32 ((i 0).val * 2000 + p.val) = v7 (ix1 k) then (1 : EReal) else 0 := by
  refine Eq.trans ?_ (scInd _ _)
  show ((((IntOp.cmpi .eq _ _).setWidth 32).toInt : ℝ) : EReal) = _
  congr 5
  · refine (broadcastTo_apply _ broadcasts_S2000x1_S2000x2048 (ix2 p k) (ix2 p (0 : Fin 1)) fun ax => ?_).trans ?_
    · match ax with
      | ⟨0, _⟩ => rfl
      | ⟨1, _⟩ => rfl
    show IntOp.addi (Scalar.muli (BitVec.ofNat 32 (i 0).val) 2000#32) (iota .tc S2000x1 32 [0] iota_S2000x1_d0_w32 (ix2 p (0 : Fin 1))) = _
    rw [iota_single_apply]
    exact scNode _ _
  · refine (broadcastTo_1b_ab_apply _ broadcasts_S1x2048_S2000x2048 p k).trans ?_
    refine (shapeCast_a_1a_apply _ shapeCasts_S2048_S1x2048 (0 : Fin 1) k).trans ?_
    rw [shapeCast_self]

/-- One step at (p, q): what the accumulator held plus the sum over the block's edges of one-hot entry times message. -/
theorem scPay (i : grid1.Coords) (v7 : Vec Ideal S2048 .i32) (v16 : Vec Ideal S2048x64 .f32) (v19 : Vec Ideal S2000x64 .f32)
    (p : Fin 2000) (q : Fin 64) :
    k1_pay2 (F := Ideal) i v7 v16 v19 (ix2 p q)
      = v19 (ix2 p q) + ∑ k : Fin 2048,
          (if BitVec.ofNat 32 ((i 0).val * 2000 + p.val) = v7 (ix1 k) then (1 : EReal) else 0) * v16 (ix2 k q) := by
  unfold k1_pay2
  dsimp only
  refine (congrFun (shapeCast_self _ _) _).trans ?_
  refine (addf_apply _ _ _).trans ?_
  refine congrArg (v19 (ix2 p q) + ·) ?_
  refine ((Ideal.matmul_constant_zero_apply dot_S2000x2048_S2048x64_S2000x64_1_0_0_1_n_n none _ _ _).trans
    ((Ideal.dotGeneral_apply _ none _ _ _ _).symm.trans (StackMember.dotGeneral_plain_apply none _ _ p q))).trans ?_
  refine Finset.sum_congr rfl fun k _ => ?_
  refine congrArg₂ (· * ·) (scHot i v7 p k) ?_
  show shapeCast S2048x64 v16 shapeCasts_S2048x64_S2048x64 (ix2 k q) = _
  rw [shapeCast_self]

/-- The block the accumulator restarts from is zero at every entry. -/
theorem scZero (j : S2000x64.Idx) : k1_pay1 (F := Ideal) j = 0 := by
  unfold k1_pay1
  refine (congrFun (shapeCast_self _ _) _).trans ?_
  exact Ideal.ofBits_zero_f32

theorem scLt (t : Fin cfg1.N) : t.val < 31750 := Nat.lt_of_lt_of_eq t.isLt N_1

/-- Point t of the 50 x 635 grid is node block t / 635. -/
theorem scCoord (t : Fin cfg1.N) : (grid1.coords t 0).val = t.val / 635 := by
  have ht := scLt t
  show t.val / grid1.stride 0 % grid1.bound 0 = _
  rw [show grid1.stride 0 = 635 from by decide, show grid1.bound 0 = 50 from rfl]
  omega

/-- The edge-block coordinate of point t, through a 32-bit word. -/
theorem scEb (t : Fin cfg1.N) : (BitVec.ofNat 32 (grid1.coords t 1).val).toNat = t.val % 635 := by
  rw [BitVec.toNat_ofNat]
  show t.val / grid1.stride 1 % grid1.bound 1 % 2 ^ 32 = _
  rw [show grid1.stride 1 = 1 from by decide, show grid1.bound 1 = 635 from rfl]
  omega

section Fold

variable (M : Fin cfg1.N → Vec Ideal S2048x64 .f32) (T : Fin cfg1.N → Vec Ideal S2048 .i32)

/-- Point n's addend at entry j: the one-hot row of j's node against the point's targets times the messages' column; 0 past the grid. -/
def scAdd (n : ℕ) (j : S2000x64.Idx) : EReal :=
  if h : n < cfg1.N then
    ∑ k : Fin 2048, (if BitVec.ofNat 32 ((grid1.coords ⟨n, h⟩ 0).val * 2000 + (j 0).val) = T ⟨n, h⟩ (ix1 k) then (1 : EReal) else 0)
      * M ⟨n, h⟩ (ix2 k ⟨(j 1).val, idx2_lt1 j⟩)
  else 0

theorem scStep (n : ℕ) (h : n < cfg1.N) (acc : Vec Ideal S2000x64 .f32) (j : S2000x64.Idx) :
    k1_pay2 (grid1.coords ⟨n, h⟩) (T ⟨n, h⟩) (M ⟨n, h⟩) acc j = acc j + scAdd M T n j := by
  obtain ⟨p, q, rfl⟩ : ∃ (p : Fin 2000) (q : Fin 64), j = ix2 p q := ⟨j 0, j 1, eq_ix2 j⟩
  refine (scPay _ _ _ acc p q).trans ?_
  unfold scAdd
  rw [dif_pos h]

/-- An accumulator that restarts from zero at every 635th point is, after point t, the sum of the addends of t's node block up to t. -/
theorem scFold (a : (n : ℕ) → n < cfg1.N → Vec Ideal S2000x64 .f32)
    (ha : ∀ n h, a n h = k1_pay2 (grid1.coords ⟨n, h⟩) (T ⟨n, h⟩) (M ⟨n, h⟩)
      (if n % 635 = 0 then k1_pay1 (F := Ideal) else a (n - 1) (Nat.lt_of_le_of_lt (Nat.sub_le _ _) h)))
    (t : ℕ) (ht : t < cfg1.N) (j : S2000x64.Idx) :
    a t ht j = ∑ s ∈ Finset.range (t % 635 + 1), scAdd M T (635 * (t / 635) + s) j := by
  have h' : 635 * (t / 635) + t % 635 < cfg1.N := by rw [Nat.div_add_mod]; exact ht
  rw [Pipeline.eq_accAt_of_mod a 635 (fun n h => k1_pay2 (grid1.coords ⟨n, h⟩) (T ⟨n, h⟩) (M ⟨n, h⟩) (k1_pay1 (F := Ideal)))
      (fun n h acc => k1_pay2 (grid1.coords ⟨n, h⟩) (T ⟨n, h⟩) (M ⟨n, h⟩) acc)
      (fun n h hn => (ha n h).trans (by rw [if_pos hn]))
      (fun n h hn => (ha (n + 1) h).trans (by rw [if_neg hn]; rfl)) (by decide) t ht h',
    Pipeline.accAt_add_apply (ι := S2000x64.Idx) (β := EReal) _ _ (fun _ => 0) (scAdd M T) _ (t % 635)
      (fun hb i => (scStep M T _ hb _ i).trans (by rw [scZero]))
      (fun n hn acc i _ _ => scStep M T n hn acc i) _ le_rfl h' j, zero_add]

/-- The scatter sums of messages and targets, by the result array's index. -/
def scRes (msg : Cert.Spec.EdgeMat) (dst : Fin 1300480 → BitVec 32) : S100000x64.Idx → EReal :=
  fun i => Cert.Spec.kScatter msg dst ⟨(i 0).val, idx2_lt0 i⟩ ⟨(i 1).val, idx2_lt1 i⟩

/-- At the last edge block of a node block the accumulator's entry j is the scatter sum at the array index i the block puts j at. -/
theorem scBlk (msg : Cert.Spec.EdgeMat) (dst : Fin 1300480 → BitVec 32)
    (hM : ∀ (t : Fin cfg1.N) (k : Fin 2048) (q : Fin 64) (e : Fin 1300480), e.val = t.val % 635 * 2048 + k.val → M t (ix2 k q) = msg e q)
    (hT : ∀ (t : Fin cfg1.N) (k : Fin 2048) (e : Fin 1300480), e.val = t.val % 635 * 2048 + k.val → T t (ix1 k) = dst e)
    (a : (n : ℕ) → n < cfg1.N → Vec Ideal S2000x64 .f32)
    (ha : ∀ n h, a n h = k1_pay2 (grid1.coords ⟨n, h⟩) (T ⟨n, h⟩) (M ⟨n, h⟩)
      (if n % 635 = 0 then k1_pay1 (F := Ideal) else a (n - 1) (Nat.lt_of_le_of_lt (Nat.sub_le _ _) h)))
    (t : Fin cfg1.N) (hm : t.val % 635 = 634) (j : S2000x64.Idx) (i : S100000x64.Idx)
    (h0 : (i 0).val = t.val / 635 * 2000 + (j 0).val) (h1 : (i 1).val = (j 1).val) :
    a t.val t.isLt j = scRes msg dst i := by
  have ht := scLt t
  rw [scFold M T a ha, hm, Finset.sum_range]
  unfold scRes Cert.Spec.kScatter
  refine Finset.sum_congr rfl fun s _ => ?_
  have h : 635 * (t.val / 635) + s.val < cfg1.N := Nat.lt_of_lt_of_eq (by omega) N_1.symm
  unfold scAdd
  rw [dif_pos h]
  refine Finset.sum_congr rfl fun k _ => ?_
  have hs : (635 * (t.val / 635) + s.val) % 635 = s.val := by omega
  have e0 : (grid1.coords ⟨635 * (t.val / 635) + s.val, h⟩ 0).val = t.val / 635 := by
    rw [scCoord]
    show (635 * (t.val / 635) + s.val) / 635 = _
    omega
  rw [e0, hT ⟨_, h⟩ k ⟨s.val * 2048 + k.val, by omega⟩ (by show _ = (635 * (t.val / 635) + s.val) % 635 * 2048 + k.val; rw [hs]),
    hM ⟨_, h⟩ k _ ⟨s.val * 2048 + k.val, by omega⟩ (by show _ = (635 * (t.val / 635) + s.val) % 635 * 2048 + k.val; rw [hs]), ← h0]
  congr 3
  exact h1.symm

end Fold

/-- Entry (k, q) of edge block t % 635 of an edge-by-feature array is its entry at padded edge (t % 635) * 2048 + k. -/
theorem scRead0 (A0 : S1300480x64.Idx → EReal) (t : Fin cfg1.N) (k : Fin 2048) (q : Fin 64) (e : Fin 1300480)
    (he : e.val = t.val % 635 * 2048 + k.val) :
    (((cfg1.win 0).blk t).view.read (Elt Ideal) A0 : Vec Ideal S2048x64 .f32) (ix2 k q) = A0 (ix2 e q) := by
  rw [View.read_apply]
  show A0 _ = A0 _
  congr 1
  funext a
  apply Fin.ext
  match a with
  | ⟨0, _⟩ => show (BitVec.ofNat 32 (grid1.coords t 1).val).toNat * 2048 + 1 * k.val = e.val; rw [scEb, he]; omega
  | ⟨1, _⟩ => show 0 * 64 + 1 * q.val = q.val; omega

/-- Entry k of edge block t % 635 of an array over the edges is its entry at padded edge (t % 635) * 2048 + k. -/
theorem scRead1 (A1 : S1300480.Idx → BitVec 32) (t : Fin cfg1.N) (k : Fin 2048) (e : Fin 1300480)
    (he : e.val = t.val % 635 * 2048 + k.val) :
    (((cfg1.win 1).blk t).view.read (Elt Ideal) A1 : Vec Ideal S2048 .i32) (ix1 k) = A1 (ix1 e) := by
  rw [View.read_apply]
  show A1 _ = A1 _
  congr 1
  funext a
  apply Fin.ext
  match a with
  | ⟨0, _⟩ => show (BitVec.ofNat 32 (grid1.coords t 1).val).toNat * 2048 + 1 * k.val = e.val; rw [scEb, he]; omega

/-- The result block's first row at point t is node (t / 635) * 2000. -/
theorem scNb (t : Fin cfg1.N) : win1_2.index t 0 = t.val / 635 := by
  have ht := scLt t
  show (BitVec.ofNat 32 (grid1.coords t 0).val).toNat = _
  rw [BitVec.toNat_ofNat, scCoord]
  omega

/-- At a point that ends a node block's run the accumulator is that block of the scatter sums of the arrays the blocks are read off. -/
theorem scFlush (A0 : S1300480x64.Idx → EReal) (A1 : S1300480.Idx → BitVec 32)
    (a : (n : ℕ) → n < cfg1.N → Vec Ideal S2000x64 .f32)
    (ha : ∀ n h, a n h = k1_pay2 (grid1.coords ⟨n, h⟩) (((cfg1.win 1).blk ⟨n, h⟩).view.read (Elt Ideal) A1)
      (((cfg1.win 0).blk ⟨n, h⟩).view.read (Elt Ideal) A0)
      (if n % 635 = 0 then k1_pay1 (F := Ideal) else a (n - 1) (Nat.lt_of_le_of_lt (Nat.sub_le _ _) h)))
    (t : Fin cfg1.N) (hf : (cfg1.win 2).flush t = true) :
    (cfg1.win 2).cut (grid1.coords t) (a t.val t.isLt)
      = ((cfg1.win 2).blk t).view.read (Elt Ideal) (scRes (fun e k => A0 (ix2 e k)) (fun e => A1 (ix1 e))) := by
  funext j
  rw [View.read_apply]
  exact scBlk _ _ _ _ (scRead0 A0) (scRead1 A1) a ha t ((flush1_2 t).mp hf)
    ((cfg1.win 2).xinj (grid1.coords t) j) (((cfg1.win 2).blk t).view.emb j)
    (show win1_2.index t 0 * 2000 + 1 * (j 0).val = t.val / 635 * 2000 + (j 0).val by rw [scNb]; omega)
    (show 0 * 64 + 1 * (j 1).val = (j 1).val by omega)

/-- Every index of the result lies in the block of the point that ends its node block's run. -/
theorem scCover (i : S100000x64.Idx) :
    ∃ t : Fin cfg1.N, (cfg1.win 2).flush t = true ∧ i ∈ ((cfg1.win 2).blk t).view.set := by
  have h0 : (i 0).val < 100000 := (i 0).isLt
  have h1 : (i 1).val < 64 := (i 1).isLt
  have hlt : 635 * ((i 0).val / 2000) + 634 < cfg1.N := Nat.lt_of_lt_of_eq (by omega) N_1.symm
  refine ⟨⟨_, hlt⟩, (flush1_2 _).mpr (by show (635 * ((i 0).val / 2000) + 634) % 635 = 634; omega), ?_⟩
  show i ∈ ((View.whole (Pipeline.arrRef spec1 2)).slice (win1_2.rect ⟨_, hlt⟩)).set
  rw [View.set_slice_whole, Rect.mem_set_unit]
  intro a
  match a with
  | ⟨0, _⟩ =>
    show win1_2.index ⟨_, hlt⟩ 0 * 2000 ≤ (i 0).val ∧ (i 0).val < win1_2.index ⟨_, hlt⟩ 0 * 2000 + 2000
    rw [scNb]
    show (635 * ((i 0).val / 2000) + 634) / 635 * 2000 ≤ (i 0).val ∧ (i 0).val < (635 * ((i 0).val / 2000) + 634) / 635 * 2000 + 2000
    omega
  | ⟨1, _⟩ =>
    show 0 * 64 ≤ (i 1).val ∧ (i 1).val < 0 * 64 + 64
    omega

end Cert.KernelIdeal.Hand

end
-- ==== Proof.KI.S1Value.lean ====
import proofs.«180960_j9371618640573_1_alg».proof.Proof.KI.S1
import proofs.«180960_j9371618640573_1_alg».proof.Proof.KI.SValue

namespace Cert.KernelIdeal.Hand

open Cert.KernelIdeal Cert.KernelIdeal.Gen Cert.KernelIdeal.GenP
open Idealize.ShloMosaic Idealize.ShloMosaic.TcCoe Idealize.ShloMosaic.ValueIdx

variable (V : (c : Dev nD) → (b : Ref sig .tc) → Buf (Elt Ideal) ((c : Thread nD τ).loc b))

/-- The accumulator restarts from zero at every 635th point and otherwise continues from the point before. -/
theorem acc1v (c : Dev nD) : ∀ n h, acc1 V c n h = k1_pay2 (grid1.coords ⟨n, h⟩) (iblk1 V c 1 ⟨n, h⟩) (iblk1 V c 0 ⟨n, h⟩)
    (if n % 635 = 0 then k1_pay1 (F := Ideal) else acc1 V c (n - 1) (Nat.lt_of_le_of_lt (Nat.sub_le _ _) h))
  | 0, _ => rfl
  | _ + 1, _ => rfl

/-- The call leaves, at node n and feature cc, the scatter sum of the messages and target words it finds. -/
theorem value1 (c : Dev nD) (n : Fin 100000) (cc : Fin 64) :
    (dat1 (F := Ideal) V c).arrAt 2 cfg1.N (ValueIdx.ix2 n cc)
      = Cert.Spec.kScatter (fun e k => V c (Pipeline.arrRef spec1 0) (ValueIdx.ix2 e k))
          (fun e => V c (Pipeline.arrRef spec1 1) (ValueIdx.ix1 e)) n cc :=
  congrFun ((dat1 V c).arrAt_eq_of_cover 2 _ (scFlush _ _ (acc1 V c) (acc1v V c)) scCover) (ix2 n cc)

end Cert.KernelIdeal.Hand
-- ==== Proof.KI.S3Value.lean ====
import proofs.«180960_j9371618640573_1_alg».proof.Proof.KI.S3
import proofs.«180960_j9371618640573_1_alg».proof.Proof.KI.SValue

namespace Cert.KernelIdeal.Hand

open Cert.KernelIdeal Cert.KernelIdeal.Gen Cert.KernelIdeal.GenP
open Idealize.ShloMosaic Idealize.ShloMosaic.TcCoe Idealize.ShloMosaic.ValueIdx

variable (V : (c : Dev nD) → (b : Ref sig .tc) → Buf (Elt Ideal) ((c : Thread nD τ).loc b))

/-- The accumulator restarts from zero at every 635th point and otherwise continues from the point before. -/
theorem acc3v (c : Dev nD) : ∀ n h, acc3 V c n h = k3_pay2 (grid3.coords ⟨n, h⟩) (iblk3 V c 1 ⟨n, h⟩) (iblk3 V c 0 ⟨n, h⟩)
    (if n % 635 = 0 then k3_pay1 (F := Ideal) else acc3 V c (n - 1) (Nat.lt_of_le_of_lt (Nat.sub_le _ _) h))
  | 0, _ => rfl
  | _ + 1, _ => rfl

/-- The call leaves, at node n and feature cc, the scatter sum of the messages and target words it finds. -/
theorem value3 (c : Dev nD) (n : Fin 100000) (cc : Fin 64) :
    (dat3 (F := Ideal) V c).arrAt 2 cfg3.N (ValueIdx.ix2 n cc)
      = Cert.Spec.kScatter (fun e k => V c (Pipeline.arrRef spec3 0) (ValueIdx.ix2 e k))
          (fun e => V c (Pipeline.arrRef spec3 1) (ValueIdx.ix1 e)) n cc :=
  congrFun ((dat3 V c).arrAt_eq_of_cover 2 _ (scFlush _ _ (acc3 V c) (acc3v V c)) scCover) (ix2 n cc)

end Cert.KernelIdeal.Hand
-- ==== Proof.KI.S5Value.lean ====
import proofs.«180960_j9371618640573_1_alg».proof.Proof.KI.S5
import proofs.«180960_j9371618640573_1_alg».proof.Proof.KI.SValue

namespace Cert.KernelIdeal.Hand

open Cert.KernelIdeal Cert.KernelIdeal.Gen Cert.KernelIdeal.GenP
open Idealize.ShloMosaic Idealize.ShloMosaic.TcCoe Idealize.ShloMosaic.ValueIdx

variable (V : (c : Dev nD) → (b : Ref sig .tc) → Buf (Elt Ideal) ((c : Thread nD τ).loc b))

/-- The accumulator restarts from zero at every 635th point and otherwise continues from the point before. -/
theorem acc5v (c : Dev nD) : ∀ n h, acc5 V c n h = k5_pay2 (grid5.coords ⟨n, h⟩) (iblk5 V c 1 ⟨n, h⟩) (iblk5 V c 0 ⟨n, h⟩)
    (if n % 635 = 0 then k5_pay1 (F := Ideal) else acc5 V c (n - 1) (Nat.lt_of_le_of_lt (Nat.sub_le _ _) h))
  | 0, _ => rfl
  | _ + 1, _ => rfl

/-- The call leaves, at node n and feature cc, the scatter sum of the messages and target words it finds. -/
theorem value5 (c : Dev nD) (n : Fin 100000) (cc : Fin 64) :
    (dat5 (F := Ideal) V c).arrAt 2 cfg5.N (ValueIdx.ix2 n cc)
      = Cert.Spec.kScatter (fun e k => V c (Pipeline.arrRef spec5 0) (ValueIdx.ix2 e k))
          (fun e => V c (Pipeline.arrRef spec5 1) (ValueIdx.ix1 e)) n cc :=
  congrFun ((dat5 V c).arrAt_eq_of_cover 2 _ (scFlush _ _ (acc5 V c) (acc5v V c)) scCover) (ix2 n cc)

end Cert.KernelIdeal.Hand
-- ==== Proof.KI.L6Value.lean ====
import proofs.«180960_j9371618640573_1_alg».proof.Proof.KI.L6
import proofs.«180960_j9371618640573_1_alg».proof.Proof.Spec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.KernelIdeal.Hand

open Cert.KernelIdeal Cert.KernelIdeal.Gen
open Cert.KernelIdeal.GenP
open Idealize.ShloMosaic Idealize.ShloMosaic.TcCoe Idealize.ShloMosaic.ValueIdx
open Idealize.SL Idealize.SL.Sem
open Idealize.ShloMosaic.Pipeline (Dat)

/-- Entry (p, q) of the payload: row p of x0 times column q of x1, plus entry q of x2. -/
theorem pay6v_apply (x0 : Vec Ideal S2000x64 .f32) (x1 : Vec Ideal S64x64 .f32) (x2 : Vec Ideal S64 .f32)
    (p : Fin 2000) (q : Fin 64) :
    k6_pay1 (F := Ideal) x0 x1 x2 (ix2 p q) = (∑ k : Fin 64, x0 (ix2 p k) * x1 (ix2 k q)) + x2 (ix1 q) := by
  unfold k6_pay1
  rw [addf_apply, shapeCast_self]
  exact congrArg₂ (· + ·)
    ((Ideal.matmul_constant_zero_apply _ none _ _ _).trans
      ((Ideal.dotGeneral_apply _ none _ _ _ _).symm.trans (StackMember.dotGeneral_plain_apply none _ _ p q)))
    ((broadcastTo_1b_ab_apply _ _ p q).trans (shapeCast_a_1a_apply x2 _ 0 q))

/-- Point t works on row block t. -/
theorem idx6v : ∀ t : Fin cfg6.N, win6_0.index t (0 : Fin 2) = t.val ∧ win6_3.index t (0 : Fin 2) = t.val :=
  (by decide +kernel : ∀ t : Fin grid6.N, _)

variable (V : (c : Dev nD) → (b : Ref sig .tc) → Buf (Elt Ideal) ((c : Thread nD τ).loc b))

def G6v (c : Dev nD) : S100000x64.Idx → EReal := fun i =>
  Cert.Spec.linear (fun n k => V c (Pipeline.arrRef spec6 0) (ix2 n k)) (fun k j => V c (Pipeline.arrRef spec6 1) (ix2 k j))
    (fun j => V c (Pipeline.arrRef spec6 2) (ix1 j)) (i 0) (i 1)

theorem iblk6v_0 (c : Dev nD) (t : Fin cfg6.N) (p : Fin 2000) (k : Fin 64) (r : Fin 100000) (hr : r.val = t.val * 2000 + p.val) :
    iblk6 V c 0 t (ix2 p k) = V c (Pipeline.arrRef spec6 0) (ix2 r k) := by
  refine congrArg (V c (Pipeline.arrRef spec6 0)) (funext fun a => Fin.ext ?_)
  match a with
  | ⟨0, _⟩ => show win6_0.index t (0 : Fin 2) * 2000 + 1 * p.val = r.val; rw [(idx6v t).1, hr]; omega
  | ⟨1, _⟩ => show 0 * 64 + 1 * k.val = k.val; omega

theorem iblk6v_1 (c : Dev nD) (t : Fin cfg6.N) (k q : Fin 64) :
    iblk6 V c 1 t (ix2 k q) = V c (Pipeline.arrRef spec6 1) (ix2 k q) := by
  refine congrArg (V c (Pipeline.arrRef spec6 1)) (funext fun a => Fin.ext ?_)
  match a with
  | ⟨0, _⟩ => show 0 * 64 + 1 * k.val = k.val; omega
  | ⟨1, _⟩ => show 0 * 64 + 1 * q.val = q.val; omega

theorem iblk6v_2 (c : Dev nD) (t : Fin cfg6.N) (q : Fin 64) :
    iblk6 V c 2 t (ix1 q) = V c (Pipeline.arrRef spec6 2) (ix1 q) := by
  refine congrArg (V c (Pipeline.arrRef spec6 2)) (funext fun a => Fin.ext ?_)
  match a with
  | ⟨0, _⟩ => show 0 * 64 + 1 * q.val = q.val; omega

/-- Every point writes its row block of the linear head. -/
theorem flushed6v_eq (c : Dev nD) (t : Fin cfg6.N) :
    (dat6 (F := Ideal) V c).flushed 3 t = ((cfg6.win 3).blk t).view.read (Elt Ideal) (G6v V c) := by
  show (cfg6.win 3).cut (grid6.coords t) ((dat6 V c).after 3 t) = _
  rw [after6_3]
  have ht : t.val < 50 := lt_of_lt_of_eq t.isLt (show cfg6.N = 50 from N_6)
  funext j
  obtain ⟨p, q, rfl⟩ : ∃ (p : Fin 2000) (q : Fin 64), j = ix2 p q := ⟨j 0, j 1, eq_ix2 j⟩
  show k6_pay1 (iblk6 V c 0 t) (iblk6 V c 1 t) (iblk6 V c 2 t) (ix2 p q) = G6v V c (((cfg6.win 3).blk t).view.emb (ix2 p q))
  have hemb : ((cfg6.win 3).blk t).view.emb (ix2 p q)
      = ix2 (⟨t.val * 2000 + p.val, by omega⟩ : Fin 100000) q := funext fun a => Fin.ext (by
    match a with
    | ⟨0, _⟩ => show win6_3.index t (0 : Fin 2) * 2000 + 1 * p.val = t.val * 2000 + p.val; rw [(idx6v t).2]; omega
    | ⟨1, _⟩ => show 0 * 64 + 1 * q.val = q.val; omega)
  rw [hemb, pay6v_apply]
  unfold G6v Cert.Spec.linear
  simp only [iblk6v_0 V c t _ _ ⟨t.val * 2000 + p.val, by omega⟩ rfl, iblk6v_1, iblk6v_2]

/-- The 50 row blocks tile the result. -/
theorem cover6v (i : S100000x64.Idx) :
    ∃ t : Fin cfg6.N, (cfg6.win 3).flush t = true ∧ i ∈ ((cfg6.win 3).blk t).view.set := by
  have hi0 : (i 0).val < 100000 := (i 0).isLt
  have hi1 : (i 1).val < 64 := (i 1).isLt
  obtain ⟨t, ht⟩ : ∃ t : Fin cfg6.N, t.val = (i 0).val / 2000 := ⟨⟨_, by rw [show cfg6.N = 50 from N_6]; omega⟩, rfl⟩
  refine ⟨t, flush6_3 t, ?_⟩
  show i ∈ ((View.whole main_v45).slice (win6_3.rect t)).set
  rw [View.set_slice_whole, Rect.mem_set_unit]
  intro a
  match a with
  | ⟨0, _⟩ =>
    show win6_3.index t (0 : Fin 2) * 2000 ≤ (i 0).val ∧ (i 0).val < win6_3.index t (0 : Fin 2) * 2000 + 2000
    rw [(idx6v t).2]
    omega
  | ⟨1, _⟩ =>
    show 0 * 64 ≤ (i 1).val ∧ (i 1).val < 0 * 64 + 64
    omega

theorem value6 (c : Dev nD) (n : Fin 100000) (cc : Fin 64) :
    (dat6 (F := Ideal) V c).arrAt 3 cfg6.N (ValueIdx.ix2 n cc)
      = Cert.Spec.linear (fun n k => V c (Pipeline.arrRef spec6 0) (ValueIdx.ix2 n k)) (fun k j => V c (Pipeline.arrRef spec6 1) (ValueIdx.ix2 k j)) (fun j => V c (Pipeline.arrRef spec6 2) (ValueIdx.ix1 j)) n cc :=
  congrFun ((dat6 V c).arrAt_eq_of_cover 3 (G6v V c) (fun t _ => flushed6v_eq V c t) (cover6v)) (ix2 n cc)

end Cert.KernelIdeal.Hand

end
-- ==== Proof.KI.HostChain.lean ====
import proofs.«180960_j9371618640573_1_alg».proof.Defs
import proofs.«180960_j9371618640573_1_alg».proof.Proof.Gen.KernelIdeal.Regions
import proofs.«180960_j9371618640573_1_alg».proof.Proof.Spec
import Idealize.ShloMosaic.Lib.ValueIdx
import Idealize.ShloMosaic.Lib.Pipeline.Value
import Idealize.ShloMosaic.Lib.StableHlo.Run
import Idealize.ShloMosaic.Lib.StableHlo.Predicate
import Idealize.ShloMosaic.Lib.ReduceAll
import Idealize.ShloMosaic.Lib.WordArith
import Idealize.ShloMosaic.PureOps.Ideal.Laws

noncomputable section

namespace Cert.KernelIdeal.Hand

open Cert.KernelIdeal Cert.KernelIdeal.Gen
open Idealize.ShloMosaic Idealize.ShloMosaic.TcCoe

/-- A rank-1 concatenation of two pieces reads the first piece below its length and the second, shifted, from there on. -/
theorem catH_apply {α : Type} {n₁ n₂ n : ℕ} (hn : n = n₁ + n₂) (x : (⟨1, ![n₁]⟩ : Shape).Idx → α) (z : (⟨1, ![n₂]⟩ : Shape).Idx → α)
    (h : Shape.Concatenates [⟨1, ![n₁]⟩, ⟨1, ![n₂]⟩] ⟨1, ![n]⟩ 0) (e : Fin n) :
    concatenate ⟨1, ![n]⟩ 0 [⟨⟨1, ![n₁]⟩, x⟩, ⟨⟨1, ![n₂]⟩, z⟩] h (ValueIdx.ix1 e)
      = if hlt : e.val < n₁ then x (ValueIdx.ix1 ⟨e.val, hlt⟩) else z (ValueIdx.ix1 ⟨e.val - n₁, by have := e.isLt; omega⟩) := by
  by_cases hlt : e.val < n₁
  · rw [dif_pos hlt]
    refine concatenate_pair_apply_left 0 x z h (ValueIdx.ix1 e) rfl (ValueIdx.ix1 ⟨e.val, hlt⟩) fun b => ?_
    match b with | ⟨0, _⟩ => rfl
  · rw [dif_neg hlt]
    refine concatenate_pair_apply_right 0 x z h (ValueIdx.ix1 e) rfl rfl (ValueIdx.ix1 ⟨e.val - n₁, by have := e.isLt; omega⟩)
      (fun b hb => absurd (Subsingleton.elim (α := Fin 1) _ _) hb) ?_
    show e.val - n₁ + n₁ = e.val
    omega

def srcK (x1 : IVec S2x1200000 32) : IVec S1300000 32 :=
  concatenate S1300000 0 [⟨S1200000, shapeCast S1200000 (extractStridedSlice S1x1200000 ![0, 0] x1 slices_S2x1200000_S1x1200000_0_0)
      shapeCasts_S1x1200000_S1200000⟩, ⟨S100000, iotaInDim S100000 32 0⟩] concatenates_S1200000_S100000_S1300000_d0

def dstK (x1 : IVec S2x1200000 32) : IVec S1300000 32 :=
  concatenate S1300000 0 [⟨S1200000, shapeCast S1200000 (extractStridedSlice S1x1200000 ![1, 0] x1 slices_S2x1200000_S1x1200000_1_0)
      shapeCasts_S1x1200000_S1200000⟩, ⟨S100000, iotaInDim S100000 32 0⟩] concatenates_S1200000_S100000_S1300000_d0

section AnyFloat

variable {F : FTy → Type} [FloatOps F]

theorem hostT_s0_v5 (W : Valuation τ sig (Elt F)) :
    (StableHlo.after hostOps0 W (Proc.devRef .tc main_v5) : IVec S1300000 32) = srcK (W (Proc.devRef .tc main_arg1)) := by
  after_results
  rfl

theorem hostT_s0_v6 (W : Valuation τ sig (Elt F)) :
    (StableHlo.after hostOps0 W (Proc.devRef .tc main_v6) : IVec S1300000 32) = dstK (W (Proc.devRef .tc main_arg1)) := by
  after_results
  rfl

variable (m : (ℓ : Loc nD τ sig) → Buf (Elt F) ℓ) (c : Dev nD)

/-- What the last four stretches of host operations do not write is as the first stretch left it. -/
theorem V5H_of1 (r : Ref sig .tc) (h2 : r ∉ hostOps0_1_W := by decide) (h3 : r ∉ hostOps0_2_W := by decide)
    (h4 : r ∉ hostOps0_3_W := by decide) (h5 : r ∉ hostOps0_4_W := by decide) : Gen.V5 m c r = Gen.V1 m c r :=
  (V5_of m c r h5).trans <| (V4_of m c r h4).trans <| (V3_of m c r h3).trans (V2_of m c r h2)

/-- What no stretch writes is as the call found it. -/
theorem V5H_keep (r : Ref sig .tc) (h1 : r ∉ hostOps0_W := by decide) (h2 : r ∉ hostOps0_1_W := by decide)
    (h3 : r ∉ hostOps0_2_W := by decide) (h4 : r ∉ hostOps0_3_W := by decide) (h5 : r ∉ hostOps0_4_W := by decide) :
    Gen.V5 m c r = m ((c : Thread nD τ).loc r) :=
  (V5H_of1 m c r h2 h3 h4 h5).trans (V1_of m c r h1)

theorem hostT_src : (Gen.V5 m c main_v5 : IVec S1300000 32) = srcK (m ((c : Thread nD τ).loc main_arg1)) :=
  (V5H_of1 m c main_v5).trans (hostT_s0_v5 (Gen.V0 m c))

theorem hostT_dst : (Gen.V5 m c main_v6 : IVec S1300000 32) = dstK (m ((c : Thread nD τ).loc main_arg1)) :=
  (V5H_of1 m c main_v6).trans (hostT_s0_v6 (Gen.V0 m c))

end AnyFloat

variable (m : (ℓ : Loc nD τ sig) → Buf (Elt Ideal) ℓ) (c : Dev nD)

def src (e : Fin 1300000) : BitVec 32 := Gen.V5 m c main_v5 (ValueIdx.ix1 e)

def dst (e : Fin 1300000) : BitVec 32 := Gen.V5 m c main_v6 (ValueIdx.ix1 e)

def norm (e : Fin 1300000) : EReal := Gen.V5 m c main_v32 (ValueIdx.ix1 e)

theorem v34H_term (W : Valuation τ sig (Elt Ideal)) :
    (StableHlo.after hostOps0_4 W (Proc.devRef .tc main_v34) : S1300480.Idx → BitVec 32)
      = concatenate S1300480 0 [⟨S1300000, (W (Proc.devRef .tc main_v5) : S1300000.Idx → BitVec 32)⟩,
          ⟨S480, broadcastInDim S480 ![] bcast_S_S480 (constantI S_ 32 0#32)⟩] concatenates_S1300000_S480_S1300480_d0 := by
  after_results

theorem v36H_term (W : Valuation τ sig (Elt Ideal)) :
    (StableHlo.after hostOps0_4 W (Proc.devRef .tc main_v36) : S1300480.Idx → BitVec 32)
      = concatenate S1300480 0 [⟨S1300000, (W (Proc.devRef .tc main_v6) : S1300000.Idx → BitVec 32)⟩,
          ⟨S480, broadcastInDim S480 ![] bcast_S_S480 (constantI S_ 32 0#32)⟩] concatenates_S1300000_S480_S1300480_d0 := by
  after_results

theorem afterH_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

abbrev tailH : List (HloOp τ sig (Elt Ideal)) := (hostOps0_4 (F := Ideal)).drop 25

theorem tailH_v38 (X : Valuation τ sig (Elt Ideal)) :
    (StableHlo.after tailH X (Proc.devRef .tc main_v38) : S1300480.Idx → EReal)
      = concatenate S1300480 0 [⟨S1300000, (X (Proc.devRef .tc main_v32) : S1300000.Idx → EReal)⟩,
          ⟨S480, broadcastInDim S480 ![] bcast_S_S480 (constant (F := Ideal) S_ .f32 0x00000000#32)⟩] concatenates_S1300000_S480_S1300480_d0 := by
  simp only [tailH, hostOps0_4, List.drop_succ_cons, List.drop_zero]
  after_results

theorem tailH_v32 (X : Valuation τ sig (Elt Ideal)) :
    StableHlo.after tailH X (Proc.devRef .tc main_v32) = X (Proc.devRef .tc main_v32) := by
  simp only [tailH, hostOps0_4, List.drop_succ_cons, List.drop_zero]
  after_results

theorem v38H_term (W : Valuation τ sig (Elt Ideal)) :
    (StableHlo.after hostOps0_4 W (Proc.devRef .tc main_v38) : S1300480.Idx → EReal)
      = concatenate S1300480 0 [⟨S1300000, (StableHlo.after hostOps0_4 W (Proc.devRef .tc main_v32) : S1300000.Idx → EReal)⟩,
          ⟨S480, broadcastInDim S480 ![] bcast_S_S480 (constant (F := Ideal) S_ .f32 0x00000000#32)⟩] concatenates_S1300000_S480_S1300480_d0 := by
  have hs : (hostOps0_4 : List (HloOp τ sig (Elt Ideal))) = hostOps0_4.take 25 ++ tailH := (List.take_append_drop 25 _).symm
  rw [hs, afterH_append, tailH_v38, tailH_v32]

/-- A vector over the edges followed by 480 entries that all equal z0. -/
theorem padH_apply {α : Type} (x : S1300000.Idx → α) (z : S480.Idx → α) (z0 : α) (hz : ∀ i, z i = z0) (e : Fin 1300480) :
    concatenate S1300480 0 [⟨S1300000, x⟩, ⟨S480, z⟩] concatenates_S1300000_S480_S1300480_d0 (ValueIdx.ix1 e)
      = if h : e.val < 1300000 then x (ValueIdx.ix1 ⟨e.val, h⟩) else z0 :=
  (catH_apply (n₁ := 1300000) (n₂ := 480) (n := 1300480) rfl x z _ e).trans (by split <;> first | rfl | exact hz _)

/-- Followed by 480 zero words it is the specification's padded vector. -/
theorem padIH (x : S1300000.Idx → BitVec 32) (e : Fin 1300480) :
    concatenate S1300480 0 [⟨S1300000, x⟩, ⟨S480, broadcastInDim S480 ![] bcast_S_S480 (constantI S_ 32 0#32)⟩]
        concatenates_S1300000_S480_S1300480_d0 (ValueIdx.ix1 e)
      = Cert.Spec.padI (fun e => x (ValueIdx.ix1 e)) e :=
  padH_apply x _ 0#32 (fun _ => rfl) e

theorem srcP_eq (e : Fin 1300480) : Gen.V5 m c main_v34 (ValueIdx.ix1 e) = Cert.Spec.padI (src m c) e :=
  (congrFun (v34H_term (Gen.V4 m c)) _).trans ((padIH _ e).trans (by unfold src; rw [V5_of m c main_v5 (by decide)]))

theorem dstP_eq (e : Fin 1300480) : Gen.V5 m c main_v36 (ValueIdx.ix1 e) = Cert.Spec.padI (dst m c) e :=
  (congrFun (v36H_term (Gen.V4 m c)) _).trans ((padIH _ e).trans (by unfold dst; rw [V5_of m c main_v6 (by decide)]))

theorem normP_eq (e : Fin 1300480) : Gen.V5 m c main_v38 (ValueIdx.ix1 e) = Cert.Spec.padF (norm m c) e :=
  (congrFun (v38H_term (Gen.V4 m c)) _).trans (padH_apply _ _ (0 : EReal) (fun _ => Ideal.ofBits_zero_f32) e)

theorem V5_arg0 : Gen.V5 m c main_arg0 = m ((c : Thread nD τ).loc main_arg0) := V5H_keep m c main_arg0

theorem V5_arg2 : Gen.V5 m c main_arg2 = m ((c : Thread nD τ).loc main_arg2) := V5H_keep m c main_arg2

theorem V5_arg3 : Gen.V5 m c main_arg3 = m ((c : Thread nD τ).loc main_arg3) := V5H_keep m c main_arg3

/-- A word that is signed-nonnegative and signed-below 100000 is a node number. -/
theorem wordH_lt (w : BitVec 32) (h0 : IntOp.cmpi .sge w 0#32 = 1#1) (h1 : IntOp.cmpi .slt w 100000#32 = 1#1) :
    w.toNat < 100000 :=
  WordArith.toNat_lt_of_zero_sle_of_slt_ofNat w 100000 (by norm_num)
    ((StableHlo.Predicate.ofBool_eq_one_iff _).1 h0) ((StableHlo.Predicate.ofBool_eq_one_iff _).1 h1)

/-- Under the precondition every given source is a node number. -/
theorem preH_row0 [Cert.Pre_finite_inputs.Facts] (hpre : Cert.Pre_KernelIdeal m) (i : S1200000.Idx) :
    (shapeCast S1200000 (extractStridedSlice S1x1200000 ![0, 0] (m ((c : Thread nD τ).loc main_arg1)) slices_S2x1200000_S1x1200000_0_0)
      shapeCasts_S1x1200000_S1200000 i : BitVec 32).toNat < 100000 := by
  have h := congrFun (hpre c) ValueIdx.ix0
  dsimp only [Cert.Pre_finite_inputs.fn, Cert.Pre_finite_inputs.fn_part1] at h
  haveI : Subsingleton Cert.Pre_finite_inputs.S_.Idx := ⟨fun a b => funext fun d => d.elim0⟩
  obtain ⟨h0, h1⟩ := IntOp.andi_eq_one.1 (Host.reduce_andi_all _ _ _ _ _ (IntOp.andi_eq_one.1 h).2 i)
  exact wordH_lt _ h0 h1

theorem src_lt [Cert.Pre_finite_inputs.Facts] (hpre : Cert.Pre_KernelIdeal m) (e : Fin 1300000) : (src m c e).toNat < 100000 := by
  unfold src
  rw [hostT_src, srcK, catH_apply (n₁ := 1200000) (n₂ := 100000) (n := 1300000) rfl]
  split
  · exact preH_row0 m c hpre _
  · show (BitVec.ofNat 32 (e.val - 1200000)).toNat < 100000
    rw [BitVec.toNat_ofNat]
    have := e.isLt
    omega

end Cert.KernelIdeal.Hand

end
-- ==== Proof.KI.Result.lean ====
import proofs.«180960_j9371618640573_1_alg».proof.Proof.KI.Family
import proofs.«180960_j9371618640573_1_alg».proof.Proof.KI.FamilyKeep
import proofs.«180960_j9371618640573_1_alg».proof.Proof.KI.GValue
import proofs.«180960_j9371618640573_1_alg».proof.Proof.KI.S1Value
import proofs.«180960_j9371618640573_1_alg».proof.Proof.KI.S3Value
import proofs.«180960_j9371618640573_1_alg».proof.Proof.KI.S5Value
import proofs.«180960_j9371618640573_1_alg».proof.Proof.KI.L6Value
import proofs.«180960_j9371618640573_1_alg».proof.Proof.KI.HostChain

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Spec

variable (m : (ℓ : Loc nD τ sig) → Buf (Elt Ideal) ℓ) (c : Dev nD)

/-- The feature table, the weight matrix and the bias the program is given, and the padded sources, targets and weights call 0 is entered with, over coordinates. -/
def X0 : NodeMat := fun n k => m ((c : Thread nD τ).loc main_arg0) (ix2 n k)
def Wm : Fin 64 → Fin 64 → EReal := fun k j => m ((c : Thread nD τ).loc main_arg2) (ix2 k j)
def bv : Fin 64 → EReal := fun j => m ((c : Thread nD τ).loc main_arg3) (ix1 j)
def srcP : Fin 1300480 → BitVec 32 := fun e => Gen.V5 m c main_v34 (ix1 e)
def dstP : Fin 1300480 → BitVec 32 := fun e => Gen.V5 m c main_v36 (ix1 e)
def normP : Fin 1300480 → EReal := fun e => Gen.V5 m c main_v38 (ix1 e)

/-- One hop: the scatter sum of the gather sum. -/
def hopK (h : NodeMat) : NodeMat := kScatter (kGather h (srcP m c) (normP m c)) (dstP m c)

/-- A gather sum `g` of arrays that hold `h`, the padded sources and the padded weights is the messages of `h`. -/
theorem gather_eq {g : EdgeMat} {f h : NodeMat} {s : Fin 1300480 → BitVec 32} {w : Fin 1300480 → EReal}
    (hv : ∀ e cc, g e cc = kGather f s w e cc) (hf : ∀ n k, f n k = h n k) (hs : ∀ e, s e = srcP m c e) (hw : ∀ e, w e = normP m c e)
    (e : Fin 1300480) (cc : Fin 64) : g e cc = kGather h (srcP m c) (normP m c) e cc := by
  rw [hv, funext₂ hf, funext hs, funext hw]

/-- A scatter sum `g` of arrays that hold the messages of `h` and the padded targets is the hop of `h`. -/
theorem scatter_eq {g h : NodeMat} {f : EdgeMat} {d : Fin 1300480 → BitVec 32}
    (hv : ∀ n cc, g n cc = kScatter f d n cc) (hf : ∀ e k, f e k = kGather h (srcP m c) (normP m c) e k) (hd : ∀ e, d e = dstP m c e)
    (n : Fin 100000) (cc : Fin 64) : g n cc = hopK m c h n cc := by
  rw [hv, funext₂ hf, funext hd]; rfl

theorem o6_eq : ∀ e cc, o6 m c (ix2 e cc) = kGather (X0 m c) (srcP m c) (normP m c) e cc :=
  gather_eq m c (value0 _ c) (fun _ _ => congrFun (V5_arg0 m c) _) (fun _ => rfl) fun _ => rfl
theorem o7_eq : ∀ n cc, o7 m c (ix2 n cc) = hopK m c (X0 m c) n cc :=
  scatter_eq m c (value1 _ c) (fun e k => (congrFun (U6_out m c) _).trans (o6_eq m c e k))
    fun _ => congrFun (U6_keep m c main_v36 (by decide)) _
theorem o8_eq : ∀ e cc, o8 m c (ix2 e cc) = kGather (hopK m c (X0 m c)) (srcP m c) (normP m c) e cc :=
  gather_eq m c (value2 _ c) (fun n k => (congrFun (U7_out m c) _).trans (o7_eq m c n k))
    (fun _ => congrFun (U7_keep m c main_v34 (by decide)) _) fun _ => congrFun (U7_keep m c main_v38 (by decide)) _
theorem o9_eq : ∀ n cc, o9 m c (ix2 n cc) = hopK m c (hopK m c (X0 m c)) n cc :=
  scatter_eq m c (value3 _ c) (fun e k => (congrFun (U8_out m c) _).trans (o8_eq m c e k))
    fun _ => congrFun (U8_keep m c main_v36 (by decide)) _
theorem o10_eq : ∀ e cc, o10 m c (ix2 e cc) = kGather (hopK m c (hopK m c (X0 m c))) (srcP m c) (normP m c) e cc :=
  gather_eq m c (value4 _ c) (fun n k => (congrFun (U9_out m c) _).trans (o9_eq m c n k))
    (fun _ => congrFun (U9_keep m c main_v34 (by decide)) _) fun _ => congrFun (U9_keep m c main_v38 (by decide)) _
theorem o11_eq : ∀ n cc, o11 m c (ix2 n cc) = hopK m c (hopK m c (hopK m c (X0 m c))) n cc :=
  scatter_eq m c (value5 _ c) (fun e k => (congrFun (U10_out m c) _).trans (o10_eq m c e k))
    fun _ => congrFun (U10_keep m c main_v36 (by decide)) _

/-- The result: the linear head of the features after the third hop. -/
theorem o12_eq (n : Fin 100000) (cc : Fin 64) : o12 m c (ix2 n cc) = linear (hopK m c (hopK m c (hopK m c (X0 m c)))) (Wm m c) (bv m c) n cc := by
  rw [o12, value6, funext₂ fun n k => (congrFun (U11_out m c) _).trans (o11_eq m c n k),
    funext₂ fun k j => (congrFun (U11_keep m c main_arg2 (by decide)) _).trans (congrFun (V5_arg2 m c) (ix2 k j)),
    funext fun j => (congrFun (U11_keep m c main_arg3 (by decide)) _).trans (congrFun (V5_arg3 m c) (ix1 j))]
  rfl

end Cert.KernelIdeal.Hand

end
-- ==== Proof.KI.HostTerms.lean ====
import proofs.«180960_j9371618640573_1_alg».proof.Proof.KI.HostChain

noncomputable section

namespace Cert.KernelIdeal.Hand

open Cert.KernelIdeal Cert.KernelIdeal.Gen
open Idealize.ShloMosaic Idealize.ShloMosaic.TcCoe

variable {F : FTy → Type} [FloatOps F]

def hostT_deg (x1 : IVec S2x1200000 32) : FVec F S100000 .f32 :=
  Host.scatterAdd scatter_S100000_S1300000x1_S1300000_n_0_0_1
    (broadcastInDim S100000 ![] bcast_S_S100000 (constant (F := F) S_ .f32 0x00000000#32))
    (broadcastInDim S1300000x1 ![0] bcast_S1300000_S1300000x1_0 (dstK x1))
    (broadcastInDim S1300000 ![] bcast_S_S1300000 (constant (F := F) S_ .f32 0x3F800000#32))

/-- The nodes of positive degree. -/
def hostT_pos (x1 : IVec S2x1200000 32) : IVec S100000 1 :=
  cmpf .ogt (hostT_deg (F := F) x1) (broadcastInDim S100000 ![] bcast_S_S100000 (constant (F := F) S_ .f32 0x00000000#32))

/-- The degree, with 1 where it is not positive. -/
def hostT_safe (x1 : IVec S2x1200000 32) : FVec F S100000 .f32 :=
  select (hostT_pos (F := F) x1) (hostT_deg (F := F) x1) (broadcastInDim S100000 ![] bcast_S_S100000 (id (constant (F := F) S_ .f32 0x3F800000#32)))

def hostT_dinv (x1 : IVec S2x1200000 32) : FVec F S100000 .f32 :=
  select (hostT_pos (F := F) x1) (Host.rsqrt (hostT_safe (F := F) x1))
    (broadcastInDim S100000 ![] bcast_S_S100000 (id (constant (F := F) S_ .f32 0x00000000#32)))

def hostT_wrap (v : IVec S1300000 32) : IVec S1300000x1 32 :=
  broadcastInDim S1300000x1 ![0] bcast_S1300000_S1300000x1_0
    (select (cmpi .slt v (broadcastInDim S1300000 ![] bcast_S_S1300000 (constantI S_ 32 0#32)))
      (addi v (broadcastInDim S1300000 ![] bcast_S_S1300000 (constantI S_ 32 100000#32))) v)

def normK (x1 : IVec S2x1200000 32) : FVec F S1300000 .f32 :=
  mulf (Host.gather gather_S100000_S1300000x1_S1300000_n_0_n_n_0_1_1 (hostT_dinv (F := F) x1) (hostT_wrap (srcK x1)))
    (Host.gather gather_S100000_S1300000x1_S1300000_n_0_n_n_0_1_1 (hostT_dinv (F := F) x1) (hostT_wrap (dstK x1)))

theorem hostT_s0_v10 (W : Valuation τ sig (Elt F)) :
    (StableHlo.after hostOps0 W (Proc.devRef .tc main_v10) : FVec F S100000 .f32) = hostT_deg (F := F) (W (Proc.devRef .tc main_arg1)) := by
  after_results
  rfl

theorem hostT_s0_v12 (W : Valuation τ sig (Elt F)) :
    (StableHlo.after hostOps0 W (Proc.devRef .tc main_v12) : IVec S100000 1) = hostT_pos (F := F) (W (Proc.devRef .tc main_arg1)) := by
  after_results
  rfl

theorem hostT_s0_v14 (W : Valuation τ sig (Elt F)) :
    (StableHlo.after hostOps0 W (Proc.devRef .tc main_v14) : IVec S100000 1) = hostT_pos (F := F) (W (Proc.devRef .tc main_arg1)) := by
  after_results
  rfl

theorem hostT_s0_cst3 (W : Valuation τ sig (Elt F)) :
    (StableHlo.after hostOps0 W (Proc.devRef .tc main_cst_3) : FVec F S_ .f32) = constant (F := F) S_ .f32 0x3F800000#32 := by
  after_results

theorem hostT_s1_v15 (W : Valuation τ sig (Elt F)) :
    (StableHlo.after hostOps0_1 W (Proc.devRef .tc main_v15) : FVec F S100000 .f32)
      = select (W (Proc.devRef .tc main_v14) : IVec S100000 1) (W (Proc.devRef .tc main_v10) : FVec F S100000 .f32)
          (broadcastInDim S100000 ![] bcast_S_S100000 (id (W (Proc.devRef .tc main_cst_3) : FVec F S_ .f32))) := by
  after_results
  rfl

theorem hostT_s2_v16 (W : Valuation τ sig (Elt F)) :
    (StableHlo.after hostOps0_2 W (Proc.devRef .tc main_v16) : FVec F S100000 .f32)
      = Host.rsqrt (W (Proc.devRef .tc main_v15) : FVec F S100000 .f32) := by
  after_results

theorem hostT_s2_cst4 (W : Valuation τ sig (Elt F)) :
    (StableHlo.after hostOps0_2 W (Proc.devRef .tc main_cst_4) : FVec F S_ .f32) = constant (F := F) S_ .f32 0x00000000#32 := by
  after_results

theorem hostT_s3_v17 (W : Valuation τ sig (Elt F)) :
    (StableHlo.after hostOps0_3 W (Proc.devRef .tc main_v17) : FVec F S100000 .f32)
      = select (W (Proc.devRef .tc main_v12) : IVec S100000 1) (W (Proc.devRef .tc main_v16) : FVec F S100000 .f32)
          (broadcastInDim S100000 ![] bcast_S_S100000 (id (W (Proc.devRef .tc main_cst_4) : FVec F S_ .f32))) := by
  after_results
  rfl

theorem hostT_s4_v32 (W : Valuation τ sig (Elt F)) :
    (StableHlo.after hostOps0_4 W (Proc.devRef .tc main_v32) : FVec F S1300000 .f32)
      = mulf (Host.gather gather_S100000_S1300000x1_S1300000_n_0_n_n_0_1_1 (W (Proc.devRef .tc main_v17) : FVec F S100000 .f32)
            (hostT_wrap (W (Proc.devRef .tc main_v5))))
          (Host.gather gather_S100000_S1300000x1_S1300000_n_0_n_n_0_1_1 (W (Proc.devRef .tc main_v17) : FVec F S100000 .f32)
            (hostT_wrap (W (Proc.devRef .tc main_v6)))) := by
  after_results_simp
  rfl

variable (m : (ℓ : Loc nD τ sig) → Buf (Elt F) ℓ) (c : Dev nD)

/-- The edge list the call finds. -/
abbrev hostT_x1 : IVec S2x1200000 32 := m ((c : Thread nD τ).loc main_arg1)

theorem hostT_V2_v15 : (Gen.V2 m c main_v15 : FVec F S100000 .f32) = hostT_safe (F := F) (hostT_x1 m c) :=
  (hostT_s1_v15 (StableHlo.after hostOps0 (Gen.V0 m c))).trans (by rw [hostT_s0_v14, hostT_s0_v10, hostT_s0_cst3]; rfl)

theorem hostT_V3_v16 : (Gen.V3 m c main_v16 : FVec F S100000 .f32) = Host.rsqrt (hostT_safe (F := F) (hostT_x1 m c)) :=
  (hostT_s2_v16 (Gen.V2 m c)).trans (congrArg Host.rsqrt (hostT_V2_v15 m c))

theorem hostT_V3_cst4 : (Gen.V3 m c main_cst_4 : FVec F S_ .f32) = constant (F := F) S_ .f32 0x00000000#32 := hostT_s2_cst4 (Gen.V2 m c)

theorem hostT_V3_v12 : (Gen.V3 m c main_v12 : IVec S100000 1) = hostT_pos (F := F) (hostT_x1 m c) :=
  (V3_of m c main_v12 (by decide)).trans <| (V2_of m c main_v12 (by decide)).trans (hostT_s0_v12 (Gen.V0 m c))

theorem hostT_V4_v17 : (Gen.V4 m c main_v17 : FVec F S100000 .f32) = hostT_dinv (F := F) (hostT_x1 m c) := by
  show (StableHlo.after hostOps0_3 (Gen.V3 m c) (Proc.devRef .tc main_v17) : FVec F S100000 .f32) = _
  rw [hostT_s3_v17, hostT_V3_v12, hostT_V3_v16, hostT_V3_cst4]
  rfl

theorem hostT_norm : (Gen.V5 m c main_v32 : FVec F S1300000 .f32) = normK (F := F) (m ((c : Thread nD τ).loc main_arg1)) := by
  show (StableHlo.after hostOps0_4 (Gen.V4 m c) (Proc.devRef .tc main_v32) : FVec F S1300000 .f32) = _
  rw [hostT_s4_v32, hostT_V4_v17, ← V5_of m c main_v5 (by decide), ← V5_of m c main_v6 (by decide), hostT_src, hostT_dst]
  rfl

end Cert.KernelIdeal.Hand

end
-- ==== Proof.RefRead.lean ====
import proofs.«180960_j9371618640573_1_alg».proof.Proof.RefRun
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S2x1200000, .i32⟩ : BufTy).Contents (Elt F)) : (⟨S1x1200000, .i32⟩ : BufTy).Contents (Elt F) :=
  extractStridedSlice S1x1200000 ![0, 0] (x1) slices_S2x1200000_S1x1200000_0_0

def val_main_v1 (x1 : (⟨S2x1200000, .i32⟩ : BufTy).Contents (Elt F)) : (⟨S1200000, .i32⟩ : BufTy).Contents (Elt F) :=
  shapeCast _ (val_main_v0 (F := F) x1) shapeCasts_S1x1200000_S1200000

def val_main_v2 (x1 : (⟨S2x1200000, .i32⟩ : BufTy).Contents (Elt F)) : (⟨S1x1200000, .i32⟩ : BufTy).Contents (Elt F) :=
  extractStridedSlice S1x1200000 ![1, 0] (x1) slices_S2x1200000_S1x1200000_1_0

def val_main_v3 (x1 : (⟨S2x1200000, .i32⟩ : BufTy).Contents (Elt F)) : (⟨S1200000, .i32⟩ : BufTy).Contents (Elt F) :=
  shapeCast _ (val_main_v2 (F := F) x1) shapeCasts_S1x1200000_S1200000

def val_main_v4 : (⟨S100000, .i32⟩ : BufTy).Contents (Elt F) :=
  iotaInDim S100000 32 0

def val_main_v5 (x1 : (⟨S2x1200000, .i32⟩ : BufTy).Contents (Elt F)) : (⟨S1300000, .i32⟩ : BufTy).Contents (Elt F) :=
  concatenate S1300000 0 [⟨S1200000, (val_main_v1 (F := F) x1)⟩, ⟨S100000, (val_main_v4 (F := F))⟩] concatenates_S1200000_S100000_S1300000_d0

def val_main_v6 (x1 : (⟨S2x1200000, .i32⟩ : BufTy).Contents (Elt F)) : (⟨S1300000, .i32⟩ : BufTy).Contents (Elt F) :=
  concatenate S1300000 0 [⟨S1200000, (val_main_v3 (F := F) x1)⟩, ⟨S100000, (val_main_v4 (F := F))⟩] concatenates_S1200000_S100000_S1300000_d0

def val_main_cst : (⟨S_, .f32⟩ : BufTy).Contents (Elt F) :=
  constant S_ .f32 0x3F800000#32

def val_main_v7 : (⟨S1300000, .f32⟩ : BufTy).Contents (Elt F) :=
  broadcastInDim S1300000 ![] bcast_S_S1300000 (val_main_cst (F := F))

def val_main_cst_0 : (⟨S_, .f32⟩ : BufTy).Contents (Elt F) :=
  constant S_ .f32 0x00000000#32

def val_main_v8 : (⟨S100000, .f32⟩ : BufTy).Contents (Elt F) :=
  broadcastInDim S100000 ![] bcast_S_S100000 (val_main_cst_0 (F := F))

def val_main_v9 (x1 : (⟨S2x1200000, .i32⟩ : BufTy).Contents (Elt F)) : (⟨S1300000x1, .i32⟩ : BufTy).Contents (Elt F) :=
  broadcastInDim S1300000x1 ![0] bcast_S1300000_S1300000x1_0 (val_main_v6 (F := F) x1)

def val_main_v10 (x1 : (⟨S2x1200000, .i32⟩ : BufTy).Contents (Elt F)) : (⟨S100000, .f32⟩ : BufTy).Contents (Elt F) :=
  Host.scatterAdd scatter_S100000_S1300000x1_S1300000_n_0_0_1 (val_main_v8 (F := F)) (val_main_v9 (F := F) x1) (val_main_v7 (F := F))

def val_main_cst_1 : (⟨S_, .f32⟩ : BufTy).Contents (Elt F) :=
  constant S_ .f32 0x00000000#32

def val_main_v11 : (⟨S100000, .f32⟩ : BufTy).Contents (Elt F) :=
  broadcastInDim S100000 ![] bcast_S_S100000 (val_main_cst_1 (F := F))

def val_main_v12 (x1 : (⟨S2x1200000, .i32⟩ : BufTy).Contents (Elt F)) : (⟨S100000, .i1⟩ : BufTy).Contents (Elt F) :=
  cmpf (F := F) .ogt (val_main_v10 (F := F) x1) (val_main_v11 (F := F))

def val_main_cst_2 : (⟨S_, .f32⟩ : BufTy).Contents (Elt F) :=
  constant S_ .f32 0x00000000#32

def val_main_v13 : (⟨S100000, .f32⟩ : BufTy).Contents (Elt F) :=
  broadcastInDim S100000 ![] bcast_S_S100000 (val_main_cst_2 (F := F))

def val_main_v14 (x1 : (⟨S2x1200000, .i32⟩ : BufTy).Contents (Elt F)) : (⟨S100000, .i1⟩ : BufTy).Contents (Elt F) :=
  cmpf (F := F) .ogt (val_main_v10 (F := F) x1) (val_main_v13 (F := F))

def val_main_cst_3 : (⟨S_, .f32⟩ : BufTy).Contents (Elt F) :=
  constant S_ .f32 0x3F800000#32

def val_main_call0_v0 : (⟨S_, .f32⟩ : BufTy).Contents (Elt F) :=
  id (val_main_cst_3 (F := F))

def val_main_call0_v1 : (⟨S100000, .f32⟩ : BufTy).Contents (Elt F) :=
  broadcastInDim S100000 ![] bcast_S_S100000 (val_main_call0_v0 (F := F))

def val_main_v15 (x1 : (⟨S2x1200000, .i32⟩ : BufTy).Contents (Elt F)) : (⟨S100000, .f32⟩ : BufTy).Contents (Elt F) :=
  select (val_main_v14 (F := F) x1) (val_main_v10 (F := F) x1) (val_main_call0_v1 (F := F))

def val_main_v16 (x1 : (⟨S2x1200000, .i32⟩ : BufTy).Contents (Elt F)) : (⟨S100000, .f32⟩ : BufTy).Contents (Elt F) :=
  Host.rsqrt (val_main_v15 (F := F) x1)

def val_main_cst_4 : (⟨S_, .f32⟩ : BufTy).Contents (Elt F) :=
  constant S_ .f32 0x00000000#32

def val_main_call1_v0 : (⟨S_, .f32⟩ : BufTy).Contents (Elt F) :=
  id (val_main_cst_4 (F := F))

def val_main_call1_v1 : (⟨S100000, .f32⟩ : BufTy).Contents (Elt F) :=
  broadcastInDim S100000 ![] bcast_S_S100000 (val_main_call1_v0 (F := F))

def val_main_v17 (x1 : (⟨S2x1200000, .i32⟩ : BufTy).Contents (Elt F)) : (⟨S100000, .f32⟩ : BufTy).Contents (Elt F) :=
  select (val_main_v12 (F := F) x1) (val_main_v16 (F := F) x1) (val_main_call1_v1 (F := F))

def val_main_c : (⟨S_, .i32⟩ : BufTy).Contents (Elt F) :=
  constantI S_ 32 0#32

def val_main_v18 : (⟨S1300000, .i32⟩ : BufTy).Contents (Elt F) :=
  broadcastInDim S1300000 ![] bcast_S_S1300000 (val_main_c (F := F))

def val_main_v19 (x1 : (⟨S2x1200000, .i32⟩ : BufTy).Contents (Elt F)) : (⟨S1300000, .i1⟩ : BufTy).Contents (Elt F) :=
  cmpi .slt (val_main_v5 (F := F) x1) (val_main_v18 (F := F))

def val_main_c_5 : (⟨S_, .i32⟩ : BufTy).Contents (Elt F) :=
  constantI S_ 32 100000#32

def val_main_v20 : (⟨S1300000, .i32⟩ : BufTy).Contents (Elt F) :=
  broadcastInDim S1300000 ![] bcast_S_S1300000 (val_main_c_5 (F := F))

def val_main_v21 (x1 : (⟨S2x1200000, .i32⟩ : BufTy).Contents (Elt F)) : (⟨S1300000, .i32⟩ : BufTy).Contents (Elt F) :=
  addi (val_main_v5 (F := F) x1) (val_main_v20 (F := F))

def val_main_v22 (x1 : (⟨S2x1200000, .i32⟩ : BufTy).Contents (Elt F)) : (⟨S1300000, .i32⟩ : BufTy).Contents (Elt F) :=
  select (val_main_v19 (F := F) x1) (val_main_v21 (F := F) x1) (val_main_v5 (F := F) x1)

def val_main_v23 (x1 : (⟨S2x1200000, .i32⟩ : BufTy).Contents (Elt F)) : (⟨S1300000x1, .i32⟩ : BufTy).Contents (Elt F) :=
  broadcastInDim S1300000x1 ![0] bcast_S1300000_S1300000x1_0 (val_main_v22 (F := F) x1)

def val_main_v24 (x1 : (⟨S2x1200000, .i32⟩ : BufTy).Contents (Elt F)) : (⟨S1300000, .f32⟩ : BufTy).Contents (Elt F) :=
  Host.gather gather_S100000_S1300000x1_S1300000_n_0_n_n_0_1_1 (val_main_v17 (F := F) x1) (val_main_v23 (F := F) x1)

def val_main_c_6 : (⟨S_, .i32⟩ : BufTy).Contents (Elt F) :=
  constantI S_ 32 0#32

def val_main_v25 : (⟨S1300000, .i32⟩ : BufTy).Contents (Elt F) :=
  broadcastInDim S1300000 ![] bcast_S_S1300000 (val_main_c_6 (F := F))

def val_main_v26 (x1 : (⟨S2x1200000, .i32⟩ : BufTy).Contents (Elt F)) : (⟨S1300000, .i1⟩ : BufTy).Contents (Elt F) :=
  cmpi .slt (val_main_v6 (F := F) x1) (val_main_v25 (F := F))

def val_main_c_7 : (⟨S_, .i32⟩ : BufTy).Contents (Elt F) :=
  constantI S_ 32 100000#32

def val_main_v27 : (⟨S1300000, .i32⟩ : BufTy).Contents (Elt F) :=
  broadcastInDim S1300000 ![] bcast_S_S1300000 (val_main_c_7 (F := F))

def val_main_v28 (x1 : (⟨S2x1200000, .i32⟩ : BufTy).Contents (Elt F)) : (⟨S1300000, .i32⟩ : BufTy).Contents (Elt F) :=
  addi (val_main_v6 (F := F) x1) (val_main_v27 (F := F))

def val_main_v29 (x1 : (⟨S2x1200000, .i32⟩ : BufTy).Contents (Elt F)) : (⟨S1300000, .i32⟩ : BufTy).Contents (Elt F) :=
  select (val_main_v26 (F := F) x1) (val_main_v28 (F := F) x1) (val_main_v6 (F := F) x1)

def val_main_v30 (x1 : (⟨S2x1200000, .i32⟩ : BufTy).Contents (Elt F)) : (⟨S1300000x1, .i32⟩ : BufTy).Contents (Elt F) :=
  broadcastInDim S1300000x1 ![0] bcast_S1300000_S1300000x1_0 (val_main_v29 (F := F) x1)

def val_main_v31 (x1 : (⟨S2x1200000, .i32⟩ : BufTy).Contents (Elt F)) : (⟨S1300000, .f32⟩ : BufTy).Contents (Elt F) :=
  Host.gather gather_S100000_S1300000x1_S1300000_n_0_n_n_0_1_1 (val_main_v17 (F := F) x1) (val_main_v30 (F := F) x1)

def val_main_v32 (x1 : (⟨S2x1200000, .i32⟩ : BufTy).Contents (Elt F)) : (⟨S1300000, .f32⟩ : BufTy).Contents (Elt F) :=
  mulf (val_main_v24 (F := F) x1) (val_main_v31 (F := F) x1)

def val_main_v33 (x1 : (⟨S2x1200000, .i32⟩ : BufTy).Contents (Elt F)) : (⟨S1300000x1, .f32⟩ : BufTy).Contents (Elt F) :=
  broadcastInDim S1300000x1 ![0] bcast_S1300000_S1300000x1_0 (val_main_v32 (F := F) x1)

def val_main_c_8 : (⟨S_, .i32⟩ : BufTy).Contents (Elt F) :=
  constantI S_ 32 0#32

def val_main_v34 : (⟨S1300000, .i32⟩ : BufTy).Contents (Elt F) :=
  broadcastInDim S1300000 ![] bcast_S_S1300000 (val_main_c_8 (F := F))

def val_main_v35 (x1 : (⟨S2x1200000, .i32⟩ : BufTy).Contents (Elt F)) : (⟨S1300000, .i1⟩ : BufTy).Contents (Elt F) :=
  cmpi .slt (val_main_v5 (F := F) x1) (val_main_v34 (F := F))

def val_main_c_9 : (⟨S_, .i32⟩ : BufTy).Contents (Elt F) :=
  constantI S_ 32 100000#32

def val_main_v36 : (⟨S1300000, .i32⟩ : BufTy).Contents (Elt F) :=
  broadcastInDim S1300000 ![] bcast_S_S1300000 (val_main_c_9 (F := F))

def val_main_v37 (x1 : (⟨S2x1200000, .i32⟩ : BufTy).Contents (Elt F)) : (⟨S1300000, .i32⟩ : BufTy).Contents (Elt F) :=
  addi (val_main_v5 (F := F) x1) (val_main_v36 (F := F))

def val_main_v38 (x1 : (⟨S2x1200000, .i32⟩ : BufTy).Contents (Elt F)) : (⟨S1300000, .i32⟩ : BufTy).Contents (Elt F) :=
  select (val_main_v35 (F := F) x1) (val_main_v37 (F := F) x1) (val_main_v5 (F := F) x1)

def val_main_v39 (x1 : (⟨S2x1200000, .i32⟩ : BufTy).Contents (Elt F)) : (⟨S1300000x1, .i32⟩ : BufTy).Contents (Elt F) :=
  broadcastInDim S1300000x1 ![0] bcast_S1300000_S1300000x1_0 (val_main_v38 (F := F) x1)

def val_main_v40 (x0 : (⟨S100000x64, .f32⟩ : BufTy).Contents (Elt F)) (x1 : (⟨S2x1200000, .i32⟩ : BufTy).Contents (Elt F)) : (⟨S1300000x64, .f32⟩ : BufTy).Contents (Elt F) :=
  Host.gather gather_S100000x64_S1300000x1_S1300000x64_1_0_n_n_0_1_164 (x0) (val_main_v39 (F := F) x1)

def val_main_v41 (x1 : (⟨S2x1200000, .i32⟩ : BufTy).Contents (Elt F)) : (⟨S1300000x64, .f32⟩ : BufTy).Contents (Elt F) :=
  broadcastInDim S1300000x64 ![0, 1] bcast_S1300000x1_S1300000x64_0_1 (val_main_v33 (F := F) x1)

def val_main_v42 (x0 : (⟨S100000x64, .f32⟩ : BufTy).Contents (Elt F)) (x1 : (⟨S2x1200000, .i32⟩ : BufTy).Contents (Elt F)) : (⟨S1300000x64, .f32⟩ : BufTy).Contents (Elt F) :=
  mulf (val_main_v41 (F := F) x1) (val_main_v40 (F := F) x0 x1)

def val_main_cst_10 : (⟨S_, .f32⟩ : BufTy).Contents (Elt F) :=
  constant S_ .f32 0x00000000#32

def val_main_v43 : (⟨S100000x64, .f32⟩ : BufTy).Contents (Elt F) :=
  broadcastInDim S100000x64 ![] bcast_S_S100000x64 (val_main_cst_10 (F := F))

def val_main_v44 (x1 : (⟨S2x1200000, .i32⟩ : BufTy).Contents (Elt F)) : (⟨S1300000x1, .i32⟩ : BufTy).Contents (Elt F) :=
  broadcastInDim S1300000x1 ![0] bcast_S1300000_S1300000x1_0 (val_main_v6 (F := F) x1)

def val_main_v45 (x0 : (⟨S100000x64, .f32⟩ : BufTy).Contents (Elt F)) (x1 : (⟨S2x1200000, .i32⟩ : BufTy).Contents (Elt F)) : (⟨S100000x64, .f32⟩ : BufTy).Contents (Elt F) :=
  Host.scatterAdd scatter_S100000x64_S1300000x1_S1300000x64_1_0_0_1 (val_main_v43 (F := F)) (val_main_v44 (F := F) x1) (val_main_v42 (F := F) x0 x1)

def val_main_v46 (x1 : (⟨S2x1200000, .i32⟩ : BufTy).Contents (Elt F)) : (⟨S1300000x1, .f32⟩ : BufTy).Contents (Elt F) :=
  broadcastInDim S1300000x1 ![0] bcast_S1300000_S1300000x1_0 (val_main_v32 (F := F) x1)

def val_main_c_11 : (⟨S_, .i32⟩ : BufTy).Contents (Elt F) :=
  constantI S_ 32 0#32

def val_main_v47 : (⟨S1300000, .i32⟩ : BufTy).Contents (Elt F) :=
  broadcastInDim S1300000 ![] bcast_S_S1300000 (val_main_c_11 (F := F))

def val_main_v48 (x1 : (⟨S2x1200000, .i32⟩ : BufTy).Contents (Elt F)) : (⟨S1300000, .i1⟩ : BufTy).Contents (Elt F) :=
  cmpi .slt (val_main_v5 (F := F) x1) (val_main_v47 (F := F))

def val_main_c_12 : (⟨S_, .i32⟩ : BufTy).Contents (Elt F) :=
  constantI S_ 32 100000#32

def val_main_v49 : (⟨S1300000, .i32⟩ : BufTy).Contents (Elt F) :=
  broadcastInDim S1300000 ![] bcast_S_S1300000 (val_main_c_12 (F := F))

def val_main_v50 (x1 : (⟨S2x1200000, .i32⟩ : BufTy).Contents (Elt F)) : (⟨S1300000, .i32⟩ : BufTy).Contents (Elt F) :=
  addi (val_main_v5 (F := F) x1) (val_main_v49 (F := F))

def val_main_v51 (x1 : (⟨S2x1200000, .i32⟩ : BufTy).Contents (Elt F)) : (⟨S1300000, .i32⟩ : BufTy).Contents (Elt F) :=
  select (val_main_v48 (F := F) x1) (val_main_v50 (F := F) x1) (val_main_v5 (F := F) x1)

def val_main_v52 (x1 : (⟨S2x1200000, .i32⟩ : BufTy).Contents (Elt F)) : (⟨S1300000x1, .i32⟩ : BufTy).Contents (Elt F) :=
  broadcastInDim S1300000x1 ![0] bcast_S1300000_S1300000x1_0 (val_main_v51 (F := F) x1)

def val_main_v53 (x0 : (⟨S100000x64, .f32⟩ : BufTy).Contents (Elt F)) (x1 : (⟨S2x1200000, .i32⟩ : BufTy).Contents (Elt F)) : (⟨S1300000x64, .f32⟩ : BufTy).Contents (Elt F) :=
  Host.gather gather_S100000x64_S1300000x1_S1300000x64_1_0_n_n_0_1_164 (val_main_v45 (F := F) x0 x1) (val_main_v52 (F := F) x1)

def val_main_v54 (x1 : (⟨S2x1200000, .i32⟩ : BufTy).Contents (Elt F)) : (⟨S1300000x64, .f32⟩ : BufTy).Contents (Elt F) :=
  broadcastInDim S1300000x64 ![0, 1] bcast_S1300000x1_S1300000x64_0_1 (val_main_v46 (F := F) x1)

def val_main_v55 (x0 : (⟨S100000x64, .f32⟩ : BufTy).Contents (Elt F)) (x1 : (⟨S2x1200000, .i32⟩ : BufTy).Contents (Elt F)) : (⟨S1300000x64, .f32⟩ : BufTy).Contents (Elt F) :=
  mulf (val_main_v54 (F := F) x1) (val_main_v53 (F := F) x0 x1)

def val_main_cst_13 : (⟨S_, .f32⟩ : BufTy).Contents (Elt F) :=
  constant S_ .f32 0x00000000#32

def val_main_v56 : (⟨S100000x64, .f32⟩ : BufTy).Contents (Elt F) :=
  broadcastInDim S100000x64 ![] bcast_S_S100000x64 (val_main_cst_13 (F := F))

def val_main_v57 (x1 : (⟨S2x1200000, .i32⟩ : BufTy).Contents (Elt F)) : (⟨S1300000x1, .i32⟩ : BufTy).Contents (Elt F) :=
  broadcastInDim S1300000x1 ![0] bcast_S1300000_S1300000x1_0 (val_main_v6 (F := F) x1)

def val_main_v58 (x0 : (⟨S100000x64, .f32⟩ : BufTy).Contents (Elt F)) (x1 : (⟨S2x1200000, .i32⟩ : BufTy).Contents (Elt F)) : (⟨S100000x64, .f32⟩ : BufTy).Contents (Elt F) :=
  Host.scatterAdd scatter_S100000x64_S1300000x1_S1300000x64_1_0_0_1 (val_main_v56 (F := F)) (val_main_v57 (F := F) x1) (val_main_v55 (F := F) x0 x1)

def val_main_v59 (x1 : (⟨S2x1200000, .i32⟩ : BufTy).Contents (Elt F)) : (⟨S1300000x1, .f32⟩ : BufTy).Contents (Elt F) :=
  broadcastInDim S1300000x1 ![0] bcast_S1300000_S1300000x1_0 (val_main_v32 (F := F) x1)

def val_main_c_14 : (⟨S_, .i32⟩ : BufTy).Contents (Elt F) :=
  constantI S_ 32 0#32

def val_main_v60 : (⟨S1300000, .i32⟩ : BufTy).Contents (Elt F) :=
  broadcastInDim S1300000 ![] bcast_S_S1300000 (val_main_c_14 (F := F))

def val_main_v61 (x1 : (⟨S2x1200000, .i32⟩ : BufTy).Contents (Elt F)) : (⟨S1300000, .i1⟩ : BufTy).Contents (Elt F) :=
  cmpi .slt (val_main_v5 (F := F) x1) (val_main_v60 (F := F))

def val_main_c_15 : (⟨S_, .i32⟩ : BufTy).Contents (Elt F) :=
  constantI S_ 32 100000#32

def val_main_v62 : (⟨S1300000, .i32⟩ : BufTy).Contents (Elt F) :=
  broadcastInDim S1300000 ![] bcast_S_S1300000 (val_main_c_15 (F := F))

def val_main_v63 (x1 : (⟨S2x1200000, .i32⟩ : BufTy).Contents (Elt F)) : (⟨S1300000, .i32⟩ : BufTy).Contents (Elt F) :=
  addi (val_main_v5 (F := F) x1) (val_main_v62 (F := F))

def val_main_v64 (x1 : (⟨S2x1200000, .i32⟩ : BufTy).Contents (Elt F)) : (⟨S1300000, .i32⟩ : BufTy).Contents (Elt F) :=
  select (val_main_v61 (F := F) x1) (val_main_v63 (F := F) x1) (val_main_v5 (F := F) x1)

def val_main_v65 (x1 : (⟨S2x1200000, .i32⟩ : BufTy).Contents (Elt F)) : (⟨S1300000x1, .i32⟩ : BufTy).Contents (Elt F) :=
  broadcastInDim S1300000x1 ![0] bcast_S1300000_S1300000x1_0 (val_main_v64 (F := F) x1)

def val_main_v66 (x0 : (⟨S100000x64, .f32⟩ : BufTy).Contents (Elt F)) (x1 : (⟨S2x1200000, .i32⟩ : BufTy).Contents (Elt F)) : (⟨S1300000x64, .f32⟩ : BufTy).Contents (Elt F) :=
  Host.gather gather_S100000x64_S1300000x1_S1300000x64_1_0_n_n_0_1_164 (val_main_v58 (F := F) x0 x1) (val_main_v65 (F := F) x1)

def val_main_v67 (x1 : (⟨S2x1200000, .i32⟩ : BufTy).Contents (Elt F)) : (⟨S1300000x64, .f32⟩ : BufTy).Contents (Elt F) :=
  broadcastInDim S1300000x64 ![0, 1] bcast_S1300000x1_S1300000x64_0_1 (val_main_v59 (F := F) x1)

def val_main_v68 (x0 : (⟨S100000x64, .f32⟩ : BufTy).Contents (Elt F)) (x1 : (⟨S2x1200000, .i32⟩ : BufTy).Contents (Elt F)) : (⟨S1300000x64, .f32⟩ : BufTy).Contents (Elt F) :=
  mulf (val_main_v67 (F := F) x1) (val_main_v66 (F := F) x0 x1)

def val_main_cst_16 : (⟨S_, .f32⟩ : BufTy).Contents (Elt F) :=
  constant S_ .f32 0x00000000#32

def val_main_v69 : (⟨S100000x64, .f32⟩ : BufTy).Contents (Elt F) :=
  broadcastInDim S100000x64 ![] bcast_S_S100000x64 (val_main_cst_16 (F := F))

def val_main_v70 (x1 : (⟨S2x1200000, .i32⟩ : BufTy).Contents (Elt F)) : (⟨S1300000x1, .i32⟩ : BufTy).Contents (Elt F) :=
  broadcastInDim S1300000x1 ![0] bcast_S1300000_S1300000x1_0 (val_main_v6 (F := F) x1)

def val_main_v71 (x0 : (⟨S100000x64, .f32⟩ : BufTy).Contents (Elt F)) (x1 : (⟨S2x1200000, .i32⟩ : BufTy).Contents (Elt F)) : (⟨S100000x64, .f32⟩ : BufTy).Contents (Elt F) :=
  Host.scatterAdd scatter_S100000x64_S1300000x1_S1300000x64_1_0_0_1 (val_main_v69 (F := F)) (val_main_v70 (F := F) x1) (val_main_v68 (F := F) x0 x1)

def val_main_v72 (x0 : (⟨S100000x64, .f32⟩ : BufTy).Contents (Elt F)) (x1 : (⟨S2x1200000, .i32⟩ : BufTy).Contents (Elt F)) (x2 : (⟨S64x64, .f32⟩ : BufTy).Contents (Elt F)) : (⟨S100000x64, .f32⟩ : BufTy).Contents (Elt F) :=
  Host.dotGeneral dot_S100000x64_S64x64_S100000x64_1_0_0_1_n_n none (val_main_v71 (F := F) x0 x1) (x2)

theorem lhs_main_v72_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl

theorem lhs_main_v72_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q

theorem rhs_main_v72_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q

theorem rhs_main_v72_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

abbrev lidx_main_v72 (i : S100000x64.Idx) (k : Fin 64) : S100000x64.Idx := fun a => match a with
  | ⟨0, _⟩ => ⟨(i 0).val, (i 0).isLt⟩
  | ⟨1, _⟩ => ⟨k.val, k.isLt⟩

abbrev ridx_main_v72 (i : S100000x64.Idx) (k : Fin 64) : S64x64.Idx := fun a => match a with
  | ⟨0, _⟩ => ⟨k.val, k.isLt⟩
  | ⟨1, _⟩ => ⟨(i 1).val, (i 1).isLt⟩

theorem val_main_v72_apply (x0 : (⟨S100000x64, .f32⟩ : BufTy).Contents (Elt Ideal)) (x1 : (⟨S2x1200000, .i32⟩ : BufTy).Contents (Elt Ideal)) (x2 : (⟨S64x64, .f32⟩ : BufTy).Contents (Elt Ideal)) (i : S100000x64.Idx) :
    val_main_v72 (F := Ideal) x0 x1 x2 i = ∑ k : Fin 64, (val_main_v71 (F := Ideal) x0 x1) (lidx_main_v72 i k) * x2 (ridx_main_v72 i k) := by
  unfold val_main_v72
  generalize val_main_v71 (F := Ideal) x0 x1 = y0
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lidx_main_v72 i k := funext fun a => Fin.ext (by
    match a with
    | ⟨0, _⟩ => exact lhs_main_v72_0 _ _
    | ⟨1, _⟩ => exact (lhs_main_v72_1 _ _).trans hk)
  have er : dot_S100000x64_S64x64_S100000x64_1_0_0_1_n_n.rhsIdx i ((ValueIdx.contrEquiv1 dot_S100000x64_S64x64_S100000x64_1_0_0_1_n_n 64 rfl rfl).symm k) = ridx_main_v72 i k := funext fun a => Fin.ext (by
    match a with
    | ⟨0, _⟩ => exact (rhs_main_v72_0 _ _).trans hk
    | ⟨1, _⟩ => exact rhs_main_v72_1 _ _)
  rw [el, er]

def val_main_v73 (x3 : (⟨S64, .f32⟩ : BufTy).Contents (Elt F)) : (⟨S1x64, .f32⟩ : BufTy).Contents (Elt F) :=
  broadcastInDim S1x64 ![1] bcast_S64_S1x64_1 (x3)

abbrev idx_main_v73 (i : S1x64.Idx) : S64.Idx := fun a => match a with
  | ⟨0, _⟩ => ⟨(i 1).val, (i 1).isLt⟩

theorem val_main_v73_apply (x3 : (⟨S64, .f32⟩ : BufTy).Contents (Elt F)) (i : S1x64.Idx) :
    val_main_v73 (F := F) x3 i = x3 (idx_main_v73 i) := by
  unfold val_main_v73
  exact broadcastInDim_apply _ bcast_S64_S1x64_1 x3 i (idx_main_v73 i) (fun a => match a with
    | ⟨0, _⟩ => by show (i 1).val = if (64 : Nat) = 1 then 0 else (i 1).val; rw [if_neg (by decide)])

def val_main_v74 (x3 : (⟨S64, .f32⟩ : BufTy).Contents (Elt F)) : (⟨S100000x64, .f32⟩ : BufTy).Contents (Elt F) :=
  broadcastInDim S100000x64 ![0, 1] bcast_S1x64_S100000x64_0_1 (val_main_v73 (F := F) x3)

abbrev idx_main_v74 (i : S100000x64.Idx) : S1x64.Idx := fun a => match a with
  | ⟨0, _⟩ => ⟨0, Nat.one_pos⟩
  | ⟨1, _⟩ => ⟨(i 1).val, (i 1).isLt⟩

theorem val_main_v74_apply (x3 : (⟨S64, .f32⟩ : BufTy).Contents (Elt F)) (i : S100000x64.Idx) :
    val_main_v74 (F := F) x3 i = val_main_v73 (F := F) x3 (idx_main_v74 i) := by
  unfold val_main_v74
  generalize val_main_v73 (F := F) x3 = y
  exact broadcastInDim_apply _ bcast_S1x64_S100000x64_0_1 y i (idx_main_v74 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v75 (x0 : (⟨S100000x64, .f32⟩ : BufTy).Contents (Elt F)) (x1 : (⟨S2x1200000, .i32⟩ : BufTy).Contents (Elt F)) (x2 : (⟨S64x64, .f32⟩ : BufTy).Contents (Elt F)) (x3 : (⟨S64, .f32⟩ : BufTy).Contents (Elt F)) : (⟨S100000x64, .f32⟩ : BufTy).Contents (Elt F) :=
  addf (val_main_v72 (F := F) x0 x1 x2) (val_main_v74 (F := F) x3)

theorem val_main_v75_apply (x0 : (⟨S100000x64, .f32⟩ : BufTy).Contents (Elt F)) (x1 : (⟨S2x1200000, .i32⟩ : BufTy).Contents (Elt F)) (x2 : (⟨S64x64, .f32⟩ : BufTy).Contents (Elt F)) (x3 : (⟨S64, .f32⟩ : BufTy).Contents (Elt F)) (i : S100000x64.Idx) :
    val_main_v75 (F := F) x0 x1 x2 x3 i = FloatOps.addf (val_main_v72 (F := F) x0 x1 x2 i) (val_main_v74 (F := F) x3 i) := rfl

theorem val_main_v75_eq (m : (ℓ : Loc nD τ sig) → Buf (Elt F) ℓ) (c : Dev nD) :
    Cert.ReferenceIdeal.ValueP.res_main_v75 m c = val_main_v75 (F := F) (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.ValueP.res_main_v75; rfl

end Cert.ReferenceIdeal.ReadP

end
-- ==== Proof.Shared.lean ====
import proofs.«180960_j9371618640573_1_alg».proof.Proof.KI.HostTerms
import proofs.«180960_j9371618640573_1_alg».proof.Proof.RefRead

set_option maxRecDepth 16384

noncomputable section

namespace Cert.KernelIdeal.Hand

open Cert.KernelIdeal Cert.KernelIdeal.Gen
open Idealize.ShloMosaic Idealize.ShloMosaic.TcCoe

variable {F : FTy → Type} [FloatOps F]

theorem hostT_shared_src (x1 : IVec S2x1200000 32) : srcK x1 = Cert.ReferenceIdeal.ReadP.val_main_v5 (F := F) x1 := rfl

theorem hostT_shared_dst (x1 : IVec S2x1200000 32) : dstK x1 = Cert.ReferenceIdeal.ReadP.val_main_v6 (F := F) x1 := rfl

theorem hostT_shared_norm (x1 : IVec S2x1200000 32) : normK (F := F) x1 = Cert.ReferenceIdeal.ReadP.val_main_v32 (F := F) x1 := rfl

end Cert.KernelIdeal.Hand

end
-- ==== Proof.RefHop.lean ====
import proofs.«180960_j9371618640573_1_alg».proof.ReferenceIdeal
import proofs.«180960_j9371618640573_1_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.RefValue

open Cert.ReferenceIdeal Idealize.ShloMosaic Idealize.ShloMosaic.ValueIdx

variable [Facts]
open Facts₀ Facts

abbrev refH_SD := scatter_S100000x64_S1300000x1_S1300000x64_1_0_0_1

abbrev refH_GD := gather_S100000x64_S1300000x1_S1300000x64_1_0_n_n_0_1_164

theorem refH_window0 (j : S1300000x64.Idx) : refH_SD.window j 0 = 0 := rfl

theorem refH_window1 (j : S1300000x64.Idx) : refH_SD.window j 1 = (j 1).val := rfl

theorem refH_start1 (j : S1300000x64.Idx) (idx : IVec S1300000x1 32) : refH_SD.start j idx 1 = 0 := rfl

theorem refH_siIdx (j : S1300000x64.Idx) (c : Fin refH_SD.scatterDimsToOperandDims.length) :
    refH_SD.siIdx j c = ix2 (j 0) (0 : Fin 1) := by
  funext b
  match b with
  | ⟨0, _⟩ => rfl
  | ⟨1, _⟩ => exact Fin.ext (Nat.lt_one_iff.mp c.isLt)

theorem refH_start0 (j : S1300000x64.Idx) (idx : IVec S1300000x1 32) :
    refH_SD.start j idx 0 = (idx (ix2 (j 0) (0 : Fin 1))).toInt := by
  unfold ScatterDims.start
  rw [dif_pos (show (0 : Fin 2) ∈ refH_SD.scatterDimsToOperandDims from List.mem_singleton.mpr rfl), refH_siIdx]
  rfl

theorem refH_resultIdx (idx : IVec S1300000x1 32) (j : S1300000x64.Idx) (i : S100000x64.Idx) :
    refH_SD.resultIdx? j idx = some i ↔ (idx (ix2 (j 0) (0 : Fin 1))).toInt = ((i 0).val : Int) ∧ j 1 = i 1 := by
  have key : (∀ a, refH_SD.start j idx a + (refH_SD.window j a : Int) = ((i a).val : Int)) ↔
      (idx (ix2 (j 0) (0 : Fin 1))).toInt = ((i 0).val : Int) ∧ j 1 = i 1 := by
    rw [Fin.forall_fin_two, refH_start0, refH_window0, refH_start1, refH_window1]
    exact ⟨fun ⟨h0, h1⟩ => ⟨by omega, Fin.ext (by omega)⟩, fun ⟨h0, h1⟩ => ⟨by omega, by rw [h1]; omega⟩⟩
  unfold ScatterDims.resultIdx?
  rw [← key]
  constructor
  · intro hres a
    split at hres
    · next hall =>
      have e : (refH_SD.start j idx a + (refH_SD.window j a : Int)).toNat = (i a).val :=
        congrArg (fun f => (f a).val) (Option.some.inj hres)
      have := (hall a).1
      omega
    · exact absurd hres (by simp)
  · intro hk
    rw [dif_pos fun a => by rw [hk a]; exact ⟨Int.natCast_nonneg _, Int.ofNat_lt.mpr (i a).isLt⟩]
    congr 1; funext a; apply Fin.ext
    show (refH_SD.start j idx a + (refH_SD.window j a : Int)).toNat = (i a).val
    rw [hk a]; rfl

theorem refH_gather_siIdx (j : S1300000x64.Idx) (c : Fin refH_GD.startIndexMap.length) :
    refH_GD.siIdx j c = ix2 (j 0) (0 : Fin 1) := by
  funext b
  match b with
  | ⟨0, _⟩ => rfl
  | ⟨1, _⟩ => exact Fin.ext (Nat.lt_one_iff.mp c.isLt)

theorem refH_gather {α : Type} (x : S100000x64.Idx → α) (idx : IVec S1300000x1 32) (e : Fin 1300000) (c : Fin 64)
    (w : BitVec 32) (hw : idx (ix2 e (0 : Fin 1)) = w) :
    Host.gather refH_GD x idx (ix2 e c) = x (ix2 (⟨min w.toInt.toNat 99999, by omega⟩ : Fin 100000) c) := by
  subst hw
  unfold Host.gather
  congr 1
  funext a
  apply Fin.ext
  match a with
  | ⟨0, _⟩ =>
    show refH_GD.start (ix2 e c) idx 0 = min _ 99999
    unfold GatherDims.start
    rw [dif_pos (show (0 : Fin 2) ∈ refH_GD.startIndexMap from List.mem_singleton.mpr rfl), refH_gather_siIdx]
    rfl
  | ⟨1, _⟩ => exact Nat.zero_add _

theorem refH_col {α : Type} (v : S1300000.Idx → α) (e : Fin 1300000) :
    broadcastInDim S1300000x1 ![0] bcast_S1300000_S1300000x1_0 v (ix2 e (0 : Fin 1)) = v (ix1 e) := by
  simp only [broadcastInDim]
  congr 1
  funext a
  match a with
  | ⟨0, _⟩ => rfl

theorem refH_rows {α : Type} (v : S1300000x1.Idx → α) (e : Fin 1300000) (c : Fin 64) :
    broadcastInDim S1300000x64 ![0, 1] bcast_S1300000x1_S1300000x64_0_1 v (ix2 e c) = v (ix2 e (0 : Fin 1)) := by
  simp only [broadcastInDim]
  congr 1
  funext a
  match a with
  | ⟨0, _⟩ => rfl
  | ⟨1, _⟩ => rfl

theorem refH_wrap (src : IVec S1300000 32) (e : Fin 1300000) :
    select (cmpi .slt src (broadcastInDim S1300000 ![] bcast_S_S1300000 (constantI S_ 32 0#32)))
           (addi src (broadcastInDim S1300000 ![] bcast_S_S1300000 (constantI S_ 32 100000#32))) src (ix1 e)
      = if (src (ix1 e)).slt 0#32 then src (ix1 e) + 100000#32 else src (ix1 e) := by
  show Scalar.select (IntOp.cmpi .slt (src (ix1 e)) 0#32) (IntOp.addi (src (ix1 e)) 100000#32) (src (ix1 e)) = _
  unfold Scalar.select IntOp.cmpi IntOp.addi
  cases hs : (src (ix1 e)).slt 0#32 <;> simp

theorem refH_scatter (x : FVec Ideal S100000x64 .f32) (idx : IVec S1300000x1 32) (upd : FVec Ideal S1300000x64 .f32)
    (n : Fin 100000) (cc : Fin 64) :
    Host.scatterAdd refH_SD x idx upd (ix2 n cc)
      = x (ix2 n cc) + ∑ e : Fin 1300000, if (idx (ix2 e (0 : Fin 1))).toInt = (n.val : Int) then upd (ix2 e cc) else 0 := by
  show _ + ∑ j ∈ Finset.univ.filter (fun j => refH_SD.resultIdx? j idx = some (ix2 n cc)), upd j = _
  refine congrArg (fun t => x (ix2 n cc) + t) ?_
  rw [Finset.sum_filter]
  rw [sum_idx2]
  refine Fintype.sum_congr _ _ fun e => ?_
  rw [Finset.sum_eq_single cc]
  · by_cases hP : (idx (ix2 e (0 : Fin 1))).toInt = (n.val : Int)
    · rw [if_pos hP, if_pos ((refH_resultIdx idx (ix2 e cc) (ix2 n cc)).2 ⟨hP, rfl⟩)]
    · rw [if_neg hP, if_neg (fun hq => hP ((refH_resultIdx idx (ix2 e cc) (ix2 n cc)).1 hq).1)]
  · intro b _ hb
    rw [if_neg (fun hq => hb ((refH_resultIdx idx (ix2 e b) (ix2 n cc)).1 hq).2)]
  · intro hnot
    exact absurd (Finset.mem_univ _) hnot

theorem refHop_apply (h : FVec Ideal S100000x64 .f32) (src dst : IVec S1300000 32) (norm : FVec Ideal S1300000 .f32)
    (n : Fin 100000) (cc : Fin 64) :
    Host.scatterAdd scatter_S100000x64_S1300000x1_S1300000x64_1_0_0_1
        (broadcastInDim S100000x64 ![] bcast_S_S100000x64 (constant S_ .f32 0x00000000#32))
        (broadcastInDim S1300000x1 ![0] bcast_S1300000_S1300000x1_0 dst)
        (mulf (broadcastInDim S1300000x64 ![0, 1] bcast_S1300000x1_S1300000x64_0_1
                (broadcastInDim S1300000x1 ![0] bcast_S1300000_S1300000x1_0 norm))
              (Host.gather gather_S100000x64_S1300000x1_S1300000x64_1_0_n_n_0_1_164 h
                (broadcastInDim S1300000x1 ![0] bcast_S1300000_S1300000x1_0
                  (select (cmpi .slt src (broadcastInDim S1300000 ![] bcast_S_S1300000 (constantI S_ 32 0#32)))
                          (addi src (broadcastInDim S1300000 ![] bcast_S_S1300000 (constantI S_ 32 100000#32))) src))))
        (ix2 n cc)
      = Cert.Spec.rHop (fun n k => h (ix2 n k)) (fun e => src (ix1 e)) (fun e => dst (ix1 e)) (fun e => norm (ix1 e)) n cc := by
  rw [refH_scatter]
  have hz : broadcastInDim S100000x64 ![] bcast_S_S100000x64 (constant (F := Ideal) S_ .f32 0x00000000#32) (ix2 n cc) = 0 :=
    Ideal.ofBits_zero_f32
  rw [hz, zero_add]
  unfold Cert.Spec.rHop
  refine Fintype.sum_congr _ _ fun e => ?_
  rw [refH_col dst e, mulf_apply, refH_rows, refH_col norm e,
    refH_gather h _ e cc _ ((refH_col _ e).trans (refH_wrap src e))]
  rfl

end Cert.ReferenceIdeal.RefValue

end
-- ==== Proof.RefValue.lean ====
import proofs.«180960_j9371618640573_1_alg».proof.Proof.RefRead
import proofs.«180960_j9371618640573_1_alg».proof.Proof.RefHop
import proofs.«180960_j9371618640573_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.ReadP
open Cert.Spec

variable (x0 : (⟨S100000x64, .f32⟩ : BufTy).Contents (Elt Ideal)) (x1 : (⟨S2x1200000, .i32⟩ : BufTy).Contents (Elt Ideal))
  (x2 : (⟨S64x64, .f32⟩ : BufTy).Contents (Elt Ideal)) (x3 : (⟨S64, .f32⟩ : BufTy).Contents (Elt Ideal))

def srcR : Fin 1300000 → BitVec 32 := fun e => val_main_v5 (F := Ideal) x1 (ix1 e)
def dstR : Fin 1300000 → BitVec 32 := fun e => val_main_v6 (F := Ideal) x1 (ix1 e)
def normR : Fin 1300000 → EReal := fun e => val_main_v32 (F := Ideal) x1 (ix1 e)

def hopR (h : NodeMat) : NodeMat := rHop h (srcR x1) (dstR x1) (normR x1)

/-- Three rounds of the reference's gather, scale and scatter-add are three hops of the features. -/
theorem hops (n : Fin 100000) (cc : Fin 64) :
    val_main_v71 (F := Ideal) x0 x1 (ix2 n cc) = hopR x1 (hopR x1 (hopR x1 (fun n k => x0 (ix2 n k)))) n cc := by
  have hop := fun h => refHop_apply h (val_main_v5 (F := Ideal) x1) (val_main_v6 (F := Ideal) x1) (val_main_v32 (F := Ideal) x1)
  have h1 : (fun n k => val_main_v45 (F := Ideal) x0 x1 (ix2 n k)) = hopR x1 (fun n k => x0 (ix2 n k)) := funext₂ (hop x0)
  have h2 : (fun n k => val_main_v58 (F := Ideal) x0 x1 (ix2 n k)) = hopR x1 (hopR x1 (fun n k => x0 (ix2 n k))) :=
    (funext₂ (hop (val_main_v45 (F := Ideal) x0 x1))).trans (congrArg (hopR x1) h1)
  exact (hop (val_main_v58 (F := Ideal) x0 x1) n cc).trans (congrFun₂ (congrArg (hopR x1) h2) n cc)

theorem result_apply (n : Fin 100000) (cc : Fin 64) :
    val_main_v75 (F := Ideal) x0 x1 x2 x3 (ix2 n cc)
      = linear (hopR x1 (hopR x1 (hopR x1 (fun n k => x0 (ix2 n k))))) (fun k j => x2 (ix2 k j)) (fun j => x3 (ix1 j)) n cc := by
  rw [val_main_v75_apply, val_main_v72_apply, val_main_v74_apply, val_main_v73_apply]
  unfold linear
  show (∑ k : Fin 64, val_main_v71 (F := Ideal) x0 x1 (lidx_main_v72 (ix2 n cc) k) * x2 (ridx_main_v72 (ix2 n cc) k)) + x3 (idx_main_v73 (idx_main_v74 (ix2 n cc))) = _
  have hl : ∀ k : Fin 64, lidx_main_v72 (ix2 n cc) k = ix2 n k := fun k =>
    funext fun a => Fin.ext (by match a with | ⟨0, _⟩ => rfl | ⟨1, _⟩ => rfl)
  have hr : ∀ k : Fin 64, ridx_main_v72 (ix2 n cc) k = ix2 k cc := fun k =>
    funext fun a => Fin.ext (by match a with | ⟨0, _⟩ => rfl | ⟨1, _⟩ => rfl)
  have hb : idx_main_v73 (idx_main_v74 (ix2 n cc)) = ix1 cc :=
    funext fun a => Fin.ext (by match a with | ⟨0, _⟩ => rfl)
  simp only [hl, hr, hb, hops]

end Cert.ReferenceIdeal.RefValue

end
-- ==== Proof.HopAlgebra.lean ====
import proofs.«180960_j9371618640573_1_alg».proof.Proof.Spec
import Mathlib.Algebra.BigOperators.Fin
import Mathlib.Data.EReal.Basic
import Mathlib.Logic.Equiv.Fin.Basic

noncomputable section

namespace Cert.Spec

open Finset

theorem sum_blocks {m n N : ℕ} (hmn : m * n = N) (g : Fin N → EReal) :
    ∑ a : Fin m, ∑ k : Fin n, g ⟨a.val * n + k.val, hmn ▸ Nat.lt_of_lt_of_le (Nat.add_lt_add_left k.isLt _)
      (Nat.succ_mul a.val n ▸ Nat.mul_le_mul_right n a.isLt)⟩ = ∑ j : Fin N, g j := by
  refine Eq.trans ?_ (Equiv.sum_comp (finProdFinEquiv.trans (finCongr hmn)) g)
  rw [Fintype.sum_prod_type]
  refine Fintype.sum_congr _ _ fun a => Fintype.sum_congr _ _ fun k => ?_
  congr 1
  apply Fin.ext
  simp only [Equiv.trans_apply, finCongr_apply, Fin.coe_cast, finProdFinEquiv_apply_val]
  ring

theorem sum_padded (g : Fin 1300480 → EReal) (hz : ∀ e : Fin 1300480, 1300000 ≤ e.val → g e = 0) :
    ∑ e : Fin 1300480, g e = ∑ e : Fin 1300000, g ⟨e.val, by omega⟩ :=
  (Finset.sum_subset (Finset.subset_univ _) fun x _ hx => hz x (by
    by_contra hlt
    exact hx (Finset.mem_map.2 ⟨⟨x.val, by omega⟩, Finset.mem_univ _, Fin.ext rfl⟩))).symm.trans
    (Finset.sum_map _ (Fin.castLEEmb (by norm_num : 1300000 ≤ 1300480)) g)

theorem eq_ofNat_iff (w : BitVec 32) (j : ℕ) (hj : j < 4294967296) :
    w = BitVec.ofNat 32 j ↔ w.toNat = j := by
  rw [← BitVec.toNat_inj, BitVec.toNat_ofNat, Nat.mod_eq_of_lt (by omega)]

theorem ofNat_eq_iff_toInt (w : BitVec 32) (n : ℕ) (hn : n < 100000) :
    BitVec.ofNat 32 n = w ↔ w.toInt = (n : Int) := by
  rw [eq_comm, eq_ofNat_iff w n (by omega), BitVec.toInt_eq_toNat_cond]
  have := w.isLt
  split <;> omega

theorem gatherRow_of_lt (s : BitVec 32) (hs : s.toNat < 100000) : gatherRow s = ⟨s.toNat, hs⟩ := by
  have hint : s.toInt = (s.toNat : Int) := BitVec.toInt_eq_toNat_of_lt (by omega)
  have hneg : s.slt 0#32 = false := by
    rw [BitVec.slt_eq_decide, BitVec.toInt_zero, hint]
    exact decide_eq_false (by omega)
  apply Fin.ext
  simp only [gatherRow, hneg, Bool.false_eq_true, if_false, hint, Int.toNat_natCast]
  omega

theorem kGather_edge (h : NodeMat) (src : Fin 1300000 → BitVec 32) (norm : Fin 1300000 → EReal)
    (hsrc : ∀ e, (src e).toNat < 100000) (e : Fin 1300000) (c : Fin 64) :
    kGather h (padI src) (padF norm) ⟨e.val, by omega⟩ c = norm e * h (gatherRow (src e)) c := by
  have hI : padI src ⟨e.val, by omega⟩ = src e := by
    simp only [padI, e.isLt, dif_pos]
  have hF : padF norm ⟨e.val, by omega⟩ = norm e := by
    simp only [padF, e.isLt, dif_pos]
  rw [gatherRow_of_lt (src e) (hsrc e)]
  unfold kGather
  rw [hI, hF]
  have hs := hsrc e
  refine (sum_blocks (m := 50) (n := 2000) rfl
    (fun j : Fin 100000 => ((if src e = BitVec.ofNat 32 j.val then (1 : EReal) else 0) * norm e) * h j c)).trans ?_
  rw [Finset.sum_eq_single (⟨(src e).toNat, hs⟩ : Fin 100000)]
  · rw [if_pos ((eq_ofNat_iff (src e) (src e).toNat (by omega)).2 rfl), one_mul]
  · intro j _ hj
    rw [if_neg fun heq => hj (Fin.ext ((eq_ofNat_iff (src e) j.val (by omega)).1 heq).symm), zero_mul, zero_mul]
  · intro hnot
    exact absurd (Finset.mem_univ _) hnot

theorem kGather_pad (h : NodeMat) (src : Fin 1300000 → BitVec 32) (norm : Fin 1300000 → EReal)
    (e : Fin 1300480) (he : 1300000 ≤ e.val) (c : Fin 64) :
    kGather h (padI src) (padF norm) e c = 0 := by
  have hF : padF norm e = 0 := by
    simp only [padF, Nat.not_lt.2 he, dif_neg, not_false_eq_true]
  unfold kGather
  rw [hF]
  exact Finset.sum_eq_zero fun nb _ => Finset.sum_eq_zero fun k _ => by rw [mul_zero, zero_mul]

theorem kHop_eq_rHop (h : NodeMat) (src dst : Fin 1300000 → BitVec 32) (norm : Fin 1300000 → EReal)
    (hsrc : ∀ e, (src e).toNat < 100000) : kHop h src dst norm = rHop h src dst norm := by
  funext n c
  have hn : n.val < 100000 := n.isLt
  unfold kHop kScatter rHop
  refine (sum_blocks (m := 635) (n := 2048) rfl (fun e : Fin 1300480 => (if BitVec.ofNat 32 n.val = padI dst e then (1 : EReal) else 0)
    * kGather h (padI src) (padF norm) e c)).trans ?_
  rw [sum_padded]
  · refine Fintype.sum_congr _ _ fun e => ?_
    have hI : padI dst ⟨e.val, by omega⟩ = dst e := by
      simp only [padI, e.isLt, dif_pos]
    rw [hI, kGather_edge h src norm hsrc e c]
    by_cases hd : (dst e).toInt = (n.val : Int)
    · rw [if_pos hd, if_pos ((ofNat_eq_iff_toInt (dst e) n.val hn).2 hd), one_mul]
    · rw [if_neg hd, if_neg (fun hq => hd ((ofNat_eq_iff_toInt (dst e) n.val hn).1 hq)), zero_mul]
  · intro e he
    rw [kGather_pad h src norm e he c, mul_zero]

end Cert.Spec

end
-- ==== Proof.Bridge.lean ====
import proofs.«180960_j9371618640573_1_alg».proof.Defs
import proofs.«180960_j9371618640573_1_alg».proof.Proof.KI.Result
import proofs.«180960_j9371618640573_1_alg».proof.Proof.KI.HostTerms
import proofs.«180960_j9371618640573_1_alg».proof.Proof.Shared
import proofs.«180960_j9371618640573_1_alg».proof.Proof.RefValue
import proofs.«180960_j9371618640573_1_alg».proof.Proof.HopAlgebra

set_option maxRecDepth 16384

noncomputable section

namespace Cert.Proof.Bridge

open Idealize.ShloMosaic Idealize.ShloMosaic.TcCoe Idealize.ShloMosaic.ValueIdx Idealize.SL.Sem
open Cert.KernelIdeal Cert.KernelIdeal.Gen Cert.KernelIdeal.Hand
open Cert.ReferenceIdeal.RefValue
open Cert.Spec

variable (m : (ℓ : Loc nD τ sig) → Buf (Elt Ideal) ℓ) (c : Dev nD)

abbrev edges : IVec S2x1200000 32 := m ((c : Thread nD τ).loc main_arg1)

theorem src_eq : Hand.src m c = srcR (edges m c) := by
  funext e
  exact congrFun ((hostT_src (F := Ideal) m c).trans (hostT_shared_src (F := Ideal) (edges m c))) (ix1 e)

theorem dst_eq : Hand.dst m c = dstR (edges m c) := by
  funext e
  exact congrFun ((hostT_dst (F := Ideal) m c).trans (hostT_shared_dst (F := Ideal) (edges m c))) (ix1 e)

theorem norm_eq : Hand.norm m c = normR (edges m c) := by
  funext e
  exact congrFun ((hostT_norm (F := Ideal) m c).trans (hostT_shared_norm (F := Ideal) (edges m c))) (ix1 e)

theorem hopK_eq_hopR [Cert.Pre_finite_inputs.Facts] (hpre : Cert.Pre_KernelIdeal m) : hopK m c = hopR (edges m c) := by
  funext h
  have hs : srcP m c = padI (Hand.src m c) := funext fun e => srcP_eq m c e
  have hd : dstP m c = padI (Hand.dst m c) := funext fun e => dstP_eq m c e
  have hn : normP m c = padF (Hand.norm m c) := funext fun e => normP_eq m c e
  unfold hopK hopR
  rw [hs, hd, hn]
  refine (kHop_eq_rHop h (Hand.src m c) (Hand.dst m c) (Hand.norm m c) (src_lt m c hpre)).trans ?_
  rw [src_eq, dst_eq, norm_eq]

end Cert.Proof.Bridge

end
-- ==== Proof.lean ====
import proofs.«180960_j9371618640573_1_alg».proof.Defs
import proofs.«180960_j9371618640573_1_alg».proof.Proof.Gen.Kernel
import proofs.«180960_j9371618640573_1_alg».proof.Proof.Gen.KernelIdeal
import proofs.«180960_j9371618640573_1_alg».proof.Proof.Gen.ReferenceIdeal
import proofs.«180960_j9371618640573_1_alg».proof.Proof.Gen.Pre_finite_inputs
import proofs.«180960_j9371618640573_1_alg».proof.Proof.K.Frame
import proofs.«180960_j9371618640573_1_alg».proof.Proof.KI.Frame
import proofs.«180960_j9371618640573_1_alg».proof.Proof.KI.RunValue
import proofs.«180960_j9371618640573_1_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem
open Cert.Spec

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Hand.o12 m c, Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  funext j
  obtain ⟨n, cc, rfl⟩ : ∃ (n : Fin 100000) (cc : Fin 64), j = ix2 n cc := ⟨j 0, j 1, eq_ix2 j⟩
  rw [Cert.ReferenceIdeal.ReadP.val_main_v75_eq, (hagree c).1, (hagree c).2.1, (hagree c).2.2.1, (hagree c).2.2.2]
  refine (Cert.ReferenceIdeal.RefValue.result_apply _ _ _ _ n cc).trans ?_
  refine ((Cert.KernelIdeal.Hand.o12_eq m c n cc).trans ?_).symm
  rw [Cert.Proof.Bridge.hopK_eq_hopR m c hpre]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
